-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 2] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 2] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64x1024 : S_.BroadcastsInDim S64x1024 (![] : Fin 0 → Fin S64x1024.rank)
  reducesTo_S64x1024_S_d0_1 : S64x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x512 .f32) (main_arg6 : FVec F S1024x32 .f32) (main_arg7 : FVec F S1024x1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_v33

def fn {F : FTy → Type} [FloatOps F] (main_arg0 : FVec F S2x256x1024 .f32) (main_arg1 : FVec F S1024x64 .f32) (main_arg2 : FVec F S64x1024 .f32) (main_arg3 : FVec F S64x1024 .f32) (main_arg4 : FVec F S1024x1024 .f32) (main_arg5 : FVec F S1024x512 .f32) (main_arg6 : FVec F S1024x32 .f32) (main_arg7 : FVec F S1024x1024 .f32) : IVec S_ 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_arg7 main_v13 main_v16
-- ==== Pre_finite_inputs_ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x1024 : S_.BroadcastsInDim S128x1024 (![] : Fin 0 → Fin S128x1024.rank)
  reducesTo_S128x1024_S_d0_1 : S128x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x512 .f32) (main_arg6 : FVec F S1024x32 .f32) (main_arg7 : FVec F S1024x1024 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_v33

def fn {F : FTy → Type} [FloatOps F] (main_arg0 : FVec F S2x256x1024 .f32) (main_arg1 : FVec F S1024x128 .f32) (main_arg2 : FVec F S128x1024 .f32) (main_arg3 : FVec F S128x1024 .f32) (main_arg4 : FVec F S1024x1024 .f32) (main_arg5 : FVec F S1024x512 .f32) (main_arg6 : FVec F S1024x32 .f32) (main_arg7 : FVec F S1024x1024 .f32) : IVec S_ 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_arg7 main_v13 main_v16
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S2x256x64 : Shape := ⟨3, ![2, 256, 64]⟩
abbrev S256x1024 : Shape := ⟨2, ![256, 1024]⟩
abbrev S3 : Shape := ⟨1, ![3]⟩
abbrev S2 : Shape := ⟨1, ![2]⟩
abbrev S_ : Shape := ⟨0, ![]⟩
abbrev S1 : Shape := ⟨1, ![1]⟩
abbrev S1x256x1024 : Shape := ⟨3, ![1, 256, 1024]⟩
abbrev S256x64 : Shape := ⟨2, ![256, 64]⟩
abbrev S1x256x64 : Shape := ⟨3, ![1, 256, 64]⟩
abbrev S256x512 : Shape := ⟨2, ![256, 512]⟩
abbrev S256x32 : Shape := ⟨2, ![256, 32]⟩
abbrev S256x1 : Shape := ⟨2, ![256, 1]⟩
abbrev S256x256 : Shape := ⟨2, ![256, 256]⟩

abbrev nBuf : Space → Nat
  | .hbm => 9
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S1024x64, .f32⟩
  | .hbm, ⟨2, _⟩ => ⟨S64x1024, .f32⟩
  | .hbm, ⟨3, _⟩ => ⟨S64x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x1024, .f32⟩
  | .local _ .vmem, ⟨0, _⟩ => ⟨S2x256x1024, .f32⟩
  | .local _ .vmem, ⟨1, _⟩ => ⟨S1024x64, .f32⟩
  | .local _ .vmem, ⟨2, _⟩ => ⟨S64x1024, .f32⟩
  | .local _ .vmem, ⟨3, _⟩ => ⟨S64x1024, .f32⟩
  | .local _ .vmem, ⟨4, _⟩ => ⟨S1024x1024, .f32⟩
  | .local _ .vmem, ⟨5, _⟩ => ⟨S1024x512, .f32⟩
  | .local _ .vmem, ⟨6, _⟩ => ⟨S1024x32, .f32⟩
  | .local _ .vmem, ⟨7, _⟩ => ⟨S1024x1024, .f32⟩
  | .local _ .vmem, ⟨8, _⟩ => ⟨S2x256x64, .bf16⟩
  | .local _ .vmem, ⟨9, _⟩ => ⟨S2x256x64, .bf16⟩
  | .local _ .vmem, ⟨10, _⟩ => ⟨S64x1024, .bf16⟩
  | .local _ .vmem, ⟨11, _⟩ => ⟨S64x1024, .bf16⟩
  | .local _ .vmem, ⟨12, _⟩ => ⟨S64x1024, .bf16⟩
  | .local _ .vmem, ⟨13, _⟩ => ⟨S64x1024, .bf16⟩
  | .local _ .vmem, ⟨14, _⟩ => ⟨S256x1024, .f32⟩
  | .local _ .vmem, ⟨15, _⟩ => ⟨S2x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v23 : BitVec 32 := Scalar.muli v2 c4_i32_12
  let v24 : BitVec 32 := Scalar.addi c0_i32 v23
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_13 : BitVec 32 := 2#32
  let v25 : BitVec 32 := Scalar.muli v9 c2_i32_13
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v27 : BitVec 32 := Scalar.muli v8 c1_i32_14
  let v28 : BitVec 32 := Scalar.addi v26 v27
  v28.toNat
def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v29 : BitVec 32 := Scalar.muli v2 c4_i32_18
  let v30 : BitVec 32 := Scalar.addi c0_i32_19 v29
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_20 : BitVec 32 := 2#32
  let v31 : BitVec 32 := Scalar.muli v9 c2_i32_20
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v33 : BitVec 32 := Scalar.muli v8 c1_i32_21
  let v34 : BitVec 32 := Scalar.addi v32 v33
  v34.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v39 : BitVec 32 := Scalar.muli v2 c4_i32_24
  let v40 : BitVec 32 := Scalar.addi c0_i32_25 v39
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_26 : BitVec 32 := 2#32
  let v41 : BitVec 32 := Scalar.muli v9 c2_i32_26
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v43 : BitVec 32 := Scalar.muli v8 c1_i32_27
  let v44 : BitVec 32 := Scalar.addi v42 v43
  v44.toNat
def k0_dev4 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v67 : BitVec 32 := Scalar.muli v2 c4_i32_46
  let v68 : BitVec 32 := Scalar.addi c0_i32_47 v67
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_48 : BitVec 32 := 2#32
  let v69 : BitVec 32 := Scalar.muli v9 c2_i32_48
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v71 : BitVec 32 := Scalar.muli v8 c1_i32_49
  let v72 : BitVec 32 := Scalar.addi v70 v71
  v72.toNat
abbrev stage0_0 : Fin 1 → Memref sig .tc .vmem S2x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  packedbf16_S64x1024_S64x1024_0_0 : (Rect.unit (s := S64x1024) ![0, 0] S64x1024.size inb_S64x1024_S64x1024_0_0).PackedRows (EltTy.packing .bf16)
  hamt_1 : (1#32 : BitVec 32).msb = false
  inb_S3_S1_1 : ∀ a, (![1] : Fin 1 → Nat) a + S1.size a ≤ S3.size a
  squeezes_S1_S_ : S1.Squeezes S_
  inb_S3_S1_2 : ∀ a, (![2] : Fin 1 → Nat) a + S1.size a ≤ S3.size a
  inb_S2x256x1024_S1x256x1024_0_0_0 : ∀ a, (![0, 0, 0] : Fin 3 → Nat) a + S1x256x1024.size a ≤ S2x256x1024.size a
  h_S1x256x1024 : 0 < S1x256x1024.numel
  shapeCasts_S1x256x1024_S256x1024 : S1x256x1024.ShapeCasts S256x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2x256x64_S1x256x64_0_0_0 : ∀ a, (![0, 0, 0] : Fin 3 → Nat) a + S1x256x64.size a ≤ S2x256x64.size a
  h_S1x256x64 : 0 < S1x256x64.numel
  shapeCasts_S1x256x64_S256x64 : S1x256x64.ShapeCasts S256x64
  shapeCasts_S256x64_S1x256x64 : S256x64.ShapeCasts S1x256x64
  packedbf16_S2x256x64_S1x256x64_0_0_0 : (Rect.unit (s := S2x256x64) ![0, 0, 0] S1x256x64.size inb_S2x256x64_S1x256x64_0_0_0).PackedRows (EltTy.packing .bf16)
  inb_S2x256x1024_S1x256x1024_1_0_0 : ∀ a, (![1, 0, 0] : Fin 3 → Nat) a + S1x256x1024.size a ≤ S2x256x1024.size a
  inb_S2x256x64_S1x256x64_1_0_0 : ∀ a, (![1, 0, 0] : Fin 3 → Nat) a + S1x256x64.size a ≤ S2x256x64.size a
  packedbf16_S2x256x64_S1x256x64_1_0_0 : (Rect.unit (s := S2x256x64) ![1, 0, 0] S1x256x64.size inb_S2x256x64_S1x256x64_1_0_0).PackedRows (EltTy.packing .bf16)
  inb_S3_S1_0 : ∀ a, (![0] : Fin 1 → Nat) a + S1.size a ≤ S3.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  slices_S256x1024_o0_0_S256x64 : S256x1024.Slices ![0, 0] S256x64
  slices_S256x512_o0_0_S256x32 : S256x512.Slices ![0, 0] S256x32
  broadcasts_S256x1_S256x64 : S256x1.Broadcasts S256x64
  inb_S256x1024_S256x64_0_0 : ∀ a, (![0, 0] : Fin 2 → Nat) a + S256x64.size a ≤ S256x1024.size a
  h_S256x64 : 0 < S256x64.numel
  shapeCasts_S256x64_S256x64 : S256x64.ShapeCasts S256x64
  slices_S256x1024_o0_64_S256x64 : S256x1024.Slices ![0, 64] S256x64
  slices_S256x512_o0_32_S256x32 : S256x512.Slices ![0, 32] S256x32
  inb_S256x1024_S256x64_0_64 : ∀ a, (![0, 64] : Fin 2 → Nat) a + S256x64.size a ≤ S256x1024.size a
  slices_S256x1024_o0_128_S256x64 : S256x1024.Slices ![0, 128] S256x64
  slices_S256x512_o0_64_S256x32 : S256x512.Slices ![0, 64] S256x32
  inb_S256x1024_S256x64_0_128 : ∀ a, (![0, 128] : Fin 2 → Nat) a + S256x64.size a ≤ S256x1024.size a
  slices_S256x1024_o0_192_S256x64 : S256x1024.Slices ![0, 192] S256x64
  slices_S256x512_o0_96_S256x32 : S256x512.Slices ![0, 96] S256x32
  inb_S256x1024_S256x64_0_192 : ∀ a, (![0, 192] : Fin 2 → Nat) a + S256x64.size a ≤ S256x1024.size a
  slices_S256x1024_o0_256_S256x64 : S256x1024.Slices ![0, 256] S256x64
  slices_S256x512_o0_128_S256x32 : S256x512.Slices ![0, 128] S256x32
  inb_S256x1024_S256x64_0_256 : ∀ a, (![0, 256] : Fin 2 → Nat) a + S256x64.size a ≤ S256x1024.size a
  slices_S256x1024_o0_320_S256x64 : S256x1024.Slices ![0, 320] S256x64
  slices_S256x512_o0_160_S256x32 : S256x512.Slices ![0, 160] S256x32
  inb_S256x1024_S256x64_0_320 : ∀ a, (![0, 320] : Fin 2 → Nat) a + S256x64.size a ≤ S256x1024.size a
  slices_S256x1024_o0_384_S256x64 : S256x1024.Slices ![0, 384] S256x64
  slices_S256x512_o0_192_S256x32 : S256x512.Slices ![0, 192] S256x32
  inb_S256x1024_S256x64_0_384 : ∀ a, (![0, 384] : Fin 2 → Nat) a + S256x64.size a ≤ S256x1024.size a
  slices_S256x1024_o0_448_S256x64 : S256x1024.Slices ![0, 448] S256x64
  slices_S256x512_o0_224_S256x32 : S256x512.Slices ![0, 224] S256x32
  inb_S256x1024_S256x64_0_448 : ∀ a, (![0, 448] : Fin 2 → Nat) a + S256x64.size a ≤ S256x1024.size a
  slices_S256x1024_o0_512_S256x64 : S256x1024.Slices ![0, 512] S256x64
  slices_S256x512_o0_256_S256x32 : S256x512.Slices ![0, 256] S256x32
  inb_S256x1024_S256x64_0_512 : ∀ a, (![0, 512] : Fin 2 → Nat) a + S256x64.size a ≤ S256x1024.size a
  slices_S256x1024_o0_576_S256x64 : S256x1024.Slices ![0, 576] S256x64
  slices_S256x512_o0_288_S256x32 : S256x512.Slices ![0, 288] S256x32
  inb_S256x1024_S256x64_0_576 : ∀ a, (![0, 576] : Fin 2 → Nat) a + S256x64.size a ≤ S256x1024.size a
  slices_S256x1024_o0_640_S256x64 : S256x1024.Slices ![0, 640] S256x64
  slices_S256x512_o0_320_S256x32 : S256x512.Slices ![0, 320] S256x32
  inb_S256x1024_S256x64_0_640 : ∀ a, (![0, 640] : Fin 2 → Nat) a + S256x64.size a ≤ S256x1024.size a
  slices_S256x1024_o0_704_S256x64 : S256x1024.Slices ![0, 704] S256x64
  slices_S256x512_o0_352_S256x32 : S256x512.Slices ![0, 352] S256x32
  inb_S256x1024_S256x64_0_704 : ∀ a, (![0, 704] : Fin 2 → Nat) a + S256x64.size a ≤ S256x1024.size a
  slices_S256x1024_o0_768_S256x64 : S256x1024.Slices ![0, 768] S256x64
  slices_S256x512_o0_384_S256x32 : S256x512.Slices ![0, 384] S256x32
  inb_S256x1024_S256x64_0_768 : ∀ a, (![0, 768] : Fin 2 → Nat) a + S256x64.size a ≤ S256x1024.size a
  slices_S256x1024_o0_832_S256x64 : S256x1024.Slices ![0, 832] S256x64
  slices_S256x512_o0_416_S256x32 : S256x512.Slices ![0, 416] S256x32
  inb_S256x1024_S256x64_0_832 : ∀ a, (![0, 832] : Fin 2 → Nat) a + S256x64.size a ≤ S256x1024.size a
  slices_S256x1024_o0_896_S256x64 : S256x1024.Slices ![0, 896] S256x64
  slices_S256x512_o0_448_S256x32 : S256x512.Slices ![0, 448] S256x32
  inb_S256x1024_S256x64_0_896 : ∀ a, (![0, 896] : Fin 2 → Nat) a + S256x64.size a ≤ S256x1024.size a
  slices_S256x1024_o0_960_S256x64 : S256x1024.Slices ![0, 960] S256x64
  slices_S256x512_o0_480_S256x32 : S256x512.Slices ![0, 480] S256x32
  inb_S256x1024_S256x64_0_960 : ∀ a, (![0, 960] : Fin 2 → Nat) a + S256x64.size a ≤ S256x1024.size a
  inb_S256x1024_S256x1024_0_0 : ∀ a, (![0, 0] : Fin 2 → Nat) a + S256x1024.size a ≤ S256x1024.size a
  h_S256x1024 : 0 < S256x1024.numel
  shapeCasts_S256x1024_S1x256x1024 : S256x1024.ShapeCasts S1x256x1024
  inb_S2_S1_0 : ∀ a, (![0] : Fin 1 → Nat) a + S1.size a ≤ S2.size a
  squeezes_S1x256x1024_S256x1024 : S1x256x1024.Squeezes S256x1024
  inb_S2_S1_1 : ∀ a, (![1] : Fin 1 → Nat) a + S1.size a ≤ S2.size a
  dot_S256x1024_S1024x64_S256x64_1_0_0_1_n_n_wf : DotDims.WF S256x1024 S1024x64 S256x64 [1] [0] [0] [1] [] []
  dot_S256x1024_S1024x1024_S256x1024_1_0_0_1_n_n_wf : DotDims.WF S256x1024 S1024x1024 S256x1024 [1] [0] [0] [1] [] []
  dot_S256x1024_S1024x512_S256x512_1_0_0_1_n_n_wf : DotDims.WF S256x1024 S1024x512 S256x512 [1] [0] [0] [1] [] []
  dot_S256x1024_S1024x32_S256x32_1_0_0_1_n_n_wf : DotDims.WF S256x1024 S1024x32 S256x32 [1] [0] [0] [1] [] []
  dot_S256x64_S64x1024_S256x1024_1_0_0_1_n_n_wf : DotDims.WF S256x64 S64x1024 S256x1024 [1] [0] [0] [1] [] []
  dot_S256x64_S256x64_S256x256_1_1_0_0_n_n_wf : DotDims.WF S256x64 S256x64 S256x256 [1] [1] [0] [0] [] []
  dot_S256x32_S256x32_S256x256_1_1_0_0_n_n_wf : DotDims.WF S256x32 S256x32 S256x256 [1] [1] [0] [0] [] []
  dot_S256x256_S256x1_S256x1_1_0_0_1_n_n_wf : DotDims.WF S256x256 S256x1 S256x1 [1] [0] [0] [1] [] []
  dot_S256x256_S256x64_S256x64_1_0_0_1_n_n_wf : DotDims.WF S256x256 S256x64 S256x64 [1] [0] [0] [1] [] []
  hcc0_scratch8 : 8 + S3.numel ≤ 16
  hcc0_scratch9 : 11 + S3.numel ≤ 16
  hcc0_scratch10 : 14 + S2.numel ≤ 16
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scratch8 : DmaSems sig S3 := SemArray.consecutive 8 S3 hcc0_scratch8
abbrev cc0_scratch9 : DmaSems sig S3 := SemArray.consecutive 11 S3 hcc0_scratch9
abbrev cc0_scratch10 : DmaSems sig S2 := SemArray.consecutive 14 S2 hcc0_scratch10
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x1024_S1024x32_S256x32_1_0_0_1_n_n : DotDims S256x1024 S1024x32 S256x32 where
  lhsContracting := [1]
  rhsContracting := [0]
  lhsNonContracting := [0]
  rhsNonContracting := [1]
  lhsBatch := []
  rhsBatch := []
  wf := dot_S256x1024_S1024x32_S256x32_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x32_S256x32_S256x256_1_1_0_0_n_n : DotDims S256x32 S256x32 S256x256 where
  lhsContracting := [1]
  rhsContracting := [1]
  lhsNonContracting := [0]
  rhsNonContracting := [0]
  lhsBatch := []
  rhsBatch := []
  wf := dot_S256x32_S256x32_S256x256_1_1_0_0_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S2x256x128 : Shape := ⟨3, ![2, 256, 128]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x128, .f32⟩
  | .hbm, ⟨2, _⟩ => ⟨S128x1024, .f32⟩
  | .hbm, ⟨3, _⟩ => ⟨S128x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x128, .f32⟩
  | .hbm, ⟨9, _⟩ => ⟨S2x256x1024, .f32⟩
  | .hbm, ⟨10, _⟩ => ⟨S2x256x16x64, .f32⟩
  | .hbm, ⟨11, _⟩ => ⟨S2x256x1024, .f32⟩
  | .hbm, ⟨12, _⟩ => ⟨S2x256x16x64, .f32⟩
  | .hbm, ⟨13, _⟩ => ⟨S2x256x1024, .f32⟩
  | .hbm, ⟨14, _⟩ => ⟨S2x256x16x64, .f32⟩
  | .hbm, ⟨15, _⟩ => ⟨S2x256x512, .f32⟩
  | .hbm, ⟨16, _⟩ => ⟨S2x256x16x32, .f32⟩
  | .hbm, ⟨17, _⟩ => ⟨S2x256x32, .f32⟩
  | .hbm, ⟨18, _⟩ => ⟨S2x256x1x32, .f32⟩
  | .hbm, ⟨19, _⟩ => ⟨S2x16x256x256, .f32⟩
  | .hbm, ⟨20, _⟩ => ⟨S2x256x16x32, .f32⟩
  | .hbm, ⟨21, _⟩ => ⟨S2x16x256x256, .f32⟩
  | .hbm, ⟨22, _⟩ => ⟨S2x16x256x256, .f32⟩
  | .hbm, ⟨23, _⟩ => ⟨S_, .f32⟩
  | .hbm, ⟨24, _⟩ => ⟨S2x16x256x256, .f32⟩
  | .hbm, ⟨25, _⟩ => ⟨S2x16x256x256, .f32⟩
  | .hbm, ⟨26, _⟩ => ⟨S_, .f32⟩
  | .hbm, ⟨27, _⟩ => ⟨S2x16x256, .f32⟩
  | .hbm, ⟨28, _⟩ => ⟨S2x16x256x1, .f32⟩
  | .hbm, ⟨29, _⟩ => ⟨S2x16x256x256, .f32⟩
  | .hbm, ⟨30, _⟩ => ⟨S2x16x256x256, .f32⟩
  | .hbm, ⟨31, _⟩ => ⟨S2x16x256x256, .f32⟩
  | .hbm, ⟨32, _⟩ => ⟨S_, .f32⟩
  | .hbm, ⟨33, _⟩ => ⟨S2x16x256, .f32⟩
  | .hbm, ⟨34, _⟩ => ⟨S2x16x256x1, .f32⟩
  | .hbm, ⟨35, _⟩ => ⟨S2x16x256x256, .f32⟩
  | .hbm, ⟨36, _⟩ => ⟨S2x16x256x256, .f32⟩
  | .hbm, ⟨37, _⟩ => ⟨S2x16x64x256, .f32⟩
  | .hbm, ⟨38, _⟩ => ⟨S2x256x16x64, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  shapeCasts_S2x256x1024_S2x256x16x64 : S2x256x1024.ShapeCasts S2x256x16x64
  shapeCasts_S2x256x512_S2x256x16x32 : S2x256x512.ShapeCasts S2x256x16x32
  shapeCasts_S2x256x32_S2x256x1x32 : S2x256x32.ShapeCasts S2x256x1x32
  bcast_S2x256x1x32_S2x256x16x32_0_1_2_3 : S2x256x1x32.BroadcastsInDim S2x256x16x32 (![0, 1, 2, 3] : Fin 4 → Fin S2x256x16x32.rank)
  bcast_S_S2x16x256x256 : S_.BroadcastsInDim S2x16x256x256 (![] : Fin 0 → Fin S2x16x256x256.rank)
  reducesTo_S2x16x256x256_S2x16x256_d3 : S2x16x256x256.ReducesTo [3] S2x16x256
  h_S_ : 0 < S_.numel
  bcast_S2x16x256_S2x16x256x1_0_1_2 : S2x16x256.BroadcastsInDim S2x16x256x1 (![0, 1, 2] : Fin 3 → Fin S2x16x256x1.rank)
  bcast_S2x16x256x1_S2x16x256x256_0_1_2_3 : S2x16x256x1.BroadcastsInDim S2x16x256x256 (![0, 1, 2, 3] : Fin 4 → Fin S2x16x256x256.rank)
  transposes_S2x16x64x256_S2x256x16x64_0_3_1_2 : S2x16x64x256.Transposes [0, 3, 1, 2] S2x256x16x64
  shapeCasts_S2x256x16x64_S2x256x1024 : S2x256x16x64.ShapeCasts S2x256x1024
  dot_S2x256x1024_S1024x128_S2x256x128_2_0_01_1_n_n_wf : DotDims.WF S2x256x1024 S1024x128 S2x256x128 [2] [0] [0, 1] [1] [] []
  dot_S2x256x128_S128x1024_S2x256x1024_2_0_01_1_n_n_wf : DotDims.WF S2x256x128 S128x1024 S2x256x1024 [2] [0] [0, 1] [1] [] []
  dot_S2x256x1024_S1024x1024_S2x256x1024_2_0_01_1_n_n_wf : DotDims.WF S2x256x1024 S1024x1024 S2x256x1024 [2] [0] [0, 1] [1] [] []
  dot_S2x256x1024_S1024x512_S2x256x512_2_0_01_1_n_n_wf : DotDims.WF S2x256x1024 S1024x512 S2x256x512 [2] [0] [0, 1] [1] [] []
  dot_S2x256x1024_S1024x32_S2x256x32_2_0_01_1_n_n_wf : DotDims.WF S2x256x1024 S1024x32 S2x256x32 [2] [0] [0, 1] [1] [] []
  dot_S2x256x16x64_S2x256x16x64_S2x16x256x256_3_3_1_1_02_02_wf : DotDims.WF S2x256x16x64 S2x256x16x64 S2x16x256x256 [3] [3] [1] [1] [0, 2] [0, 2]
  dot_S2x256x16x32_S2x256x16x32_S2x16x256x256_3_3_1_1_02_02_wf : DotDims.WF S2x256x16x32 S2x256x16x32 S2x16x256x256 [3] [3] [1] [1] [0, 2] [0, 2]
  dot_S2x256x16x64_S2x16x256x256_S2x16x64x256_1_3_3_2_02_01_wf : DotDims.WF S2x256x16x64 S2x16x256x256 S2x16x64x256 [1] [3] [3] [2] [0, 2] [0, 1]

variable [Facts₀]

def dot_S2x256x1024_S1024x128_S2x256x128_2_0_01_1_n_n : DotDims S2x256x1024 S1024x128 S2x256x128 where
  lhsContracting := [2]
  rhsContracting := [0]
  lhsNonContracting := [0, 1]
  rhsNonContracting := [1]
  lhsBatch := []
  rhsBatch := []
  wf := dot_S2x256x1024_S1024x128_S2x256x128_2_0_01_1_n_n_wf
def dot_S2x256x128_S128x1024_S2x256x1024_2_0_01_1_n_n : DotDims S2x256x128 S128x1024 S2x256x1024 where
  lhsContracting := [2]
  rhsContracting := [0]
  lhsNonContracting := [0, 1]
  rhsNonContracting := [1]
  lhsBatch := []
  rhsBatch := []
  wf := dot_S2x256x128_S128x1024_S2x256x1024_2_0_01_1_n_n_wf
def dot_S2x256x1024_S1024x1024_S2x256x1024_2_0_01_1_n_n : DotDims S2x256x1024 S1024x1024 S2x256x1024 where
  lhsContracting := [2]
  rhsContracting := [0]
  lhsNonContracting := [0, 1]
  rhsNonContracting := [1]
  lhsBatch := []
  rhsBatch := []
  wf := dot_S2x256x1024_S1024x1024_S2x256x1024_2_0_01_1_n_n_wf
def dot_S2x256x1024_S1024x512_S2x256x512_2_0_01_1_n_n : DotDims S2x256x1024 S1024x512 S2x256x512 where
  lhsContracting := [2]
  rhsContracting := [0]
  lhsNonContracting := [0, 1]
  rhsNonContracting := [1]
  lhsBatch := []
  rhsBatch := []
  wf := dot_S2x256x1024_S1024x512_S2x256x512_2_0_01_1_n_n_wf
def dot_S2x256x1024_S1024x32_S2x256x32_2_0_01_1_n_n : DotDims S2x256x1024 S1024x32 S2x256x32 where
  lhsContracting := [2]
  rhsContracting := [0]
  lhsNonContracting := [0, 1]
  rhsNonContracting := [1]
  lhsBatch := []
  rhsBatch := []
  wf := dot_S2x256x1024_S1024x32_S2x256x32_2_0_01_1_n_n_wf
def dot_S2x256x16x64_S2x256x16x64_S2x16x256x256_3_3_1_1_02_02 : DotDims S2x256x16x64 S2x256x16x64 S2x16x256x256 where
  lhsContracting := [3]
  rhsContracting := [3]
  lhsNonContracting := [1]
  rhsNonContracting := [1]
  lhsBatch := [0, 2]
  rhsBatch := [0, 2]
  wf := dot_S2x256x16x64_S2x256x16x64_S2x16x256x256_3_3_1_1_02_02_wf
def dot_S2x256x16x32_S2x256x16x32_S2x16x256x256_3_3_1_1_02_02 : DotDims S2x256x16x32 S2x256x16x32 S2x16x256x256 where
  lhsContracting := [3]
  rhsContracting := [3]
  lhsNonContracting := [1]
  rhsNonContracting := [1]
  lhsBatch := [0, 2]
  rhsBatch := [0, 2]
  wf := dot_S2x256x16x32_S2x256x16x32_S2x16x256x256_3_3_1_1_02_02_wf
def dot_S2x256x16x64_S2x16x256x256_S2x16x64x256_1_3_3_2_02_01 : DotDims S2x256x16x64 S2x16x256x256 S2x16x64x256 where
  lhsContracting := [1]
  rhsContracting := [3]
  lhsNonContracting := [3]
  rhsNonContracting := [2]
  lhsBatch := [0, 2]
  rhsBatch := [0, 1]
  wf := dot_S2x256x16x64_S2x16x256x256_S2x16x64x256_1_3_3_2_02_01_wf

class Facts : Prop extends Facts₀ where

variable [Facts]
-- ==== Proof.KTerms.lean ====
import proofs.«900965_g7700000000000966_dist_mla_v7x_xyz2x2x2_y_b2_s256_d1024_dc64_f32_1_alg».proof.Proof.Gen.KernelIdeal.Skeleton
import Idealize.ShloMosaic.Lib.ValueIdx

noncomputable section

namespace Cert.KernelIdeal.Hand

open Cert.KernelIdeal Cert.KernelIdeal.Gen Idealize.ShloMosaic Idealize.ShloMosaic.ValueIdx

variable {F : FTy → Type} [FloatOps F]

def sc : F .f32 := Scalar.ofBits .f32 0x3DD105EC#32

def ones : FVec F S256x1 .f32 := k0_pay18

section Own
variable (x0 x1 : Vec F S1x256x1024 .f32) (wd : Vec F S1024x64 .f32) (wuk wuv : Vec F S64x1024 .f32)

def cs0 : FVec F S1x256x64 .bf16 := k0_pay3 x0 wd
def cs1 : FVec F S1x256x64 .bf16 := k0_pay5 (k0_pay4 x1 wd)
def wukS : FVec F S64x1024 .bf16 := k0_pay1 wuk
def wuvS : FVec F S64x1024 .bf16 := k0_pay2 wuv

def km0 : FVec F S256x1024 .f32 := k0_pay10 (cs0 x0 wd) (wukS wuk)
def vm0 : FVec F S256x1024 .f32 := k0_pay11 (cs0 x0 wd) (wuvS wuv)
def km1 : FVec F S256x1024 .f32 := k0_pay16 (cs1 x1 wd) (wukS wuk)
def vm1 : FVec F S256x1024 .f32 := k0_pay17 (cs1 x1 wd) (wuvS wuv)
end Own

section Batch0
variable (x0 : Vec F S1x256x1024 .f32) (wd : Vec F S1024x64 .f32) (wuk wuv : Vec F S64x1024 .f32)
  (wq : Vec F S1024x1024 .f32) (wqr : Vec F S1024x512 .f32) (wkr : Vec F S1024x32 .f32)
  (cr0 : Vec F S1x256x64 .bf16) (wukr wuvr : Vec F S64x1024 .bf16)

def q0 : FVec F S256x1024 .f32 := k0_pay19 (k0_pay7 x0 wq)
def qr0 : FVec F S256x512 .f32 := k0_pay20 (k0_pay8 x0 wqr) sc
def kr0 : FVec F S256x32 .f32 := k0_pay9 x0 wkr
def k0 : FVec F S256x1024 .f32 := k0_pay21 (km0 x0 wd wuk) cr0 wukr
def v0 : FVec F S256x1024 .f32 := k0_pay22 (vm0 x0 wd wuv) cr0 wuvr

def headPay0 : Fin 16 → FVec F S256x64 .f32
  | 0 => k0_pay23 (k0_pay8 x0 wqr) (kr0 x0 wkr) (km0 x0 wd wuk) (vm0 x0 wd wuv) (ones (F := F)) (q0 x0 wq) (sc (F := F)) cr0 wukr cr0 wuvr
  | 1 => k0_pay26 (v0 x0 wd wuv cr0 wuvr) (k0_pay24 (k0_pay8 x0 wqr) (kr0 x0 wkr) (km0 x0 wd wuk) (q0 x0 wq) (sc (F := F)) cr0 wukr) (k0_pay25 (k0_pay8 x0 wqr) (kr0 x0 wkr) (km0 x0 wd wuk) (ones (F := F)) (q0 x0 wq) (sc (F := F)) cr0 wukr)
  | 2 => k0_pay27 (kr0 x0 wkr) (ones (F := F)) (q0 x0 wq) (qr0 x0 wqr) (k0 x0 wd wuk cr0 wukr) (v0 x0 wd wuv cr0 wuvr)
  | 3 => k0_pay29 (k0_pay28 (kr0 x0 wkr) (ones (F := F)) (q0 x0 wq) (qr0 x0 wqr) (k0 x0 wd wuk cr0 wukr) (v0 x0 wd wuv cr0 wuvr))
  | 4 => k0_pay30 (kr0 x0 wkr) (ones (F := F)) (q0 x0 wq) (qr0 x0 wqr) (k0 x0 wd wuk cr0 wukr) (v0 x0 wd wuv cr0 wuvr)
  | 5 => k0_pay31 (kr0 x0 wkr) (ones (F := F)) (q0 x0 wq) (qr0 x0 wqr) (k0 x0 wd wuk cr0 wukr) (v0 x0 wd wuv cr0 wuvr)
  | 6 => k0_pay34 (kr0 x0 wkr) (ones (F := F)) (v0 x0 wd wuv cr0 wuvr) (k0_pay32 (qr0 x0 wqr)) (k0_pay33 (q0 x0 wq) (k0 x0 wd wuk cr0 wukr)) (constant S256x256 .f32 0x00000000#32)
  | 7 => k0_pay35 (kr0 x0 wkr) (ones (F := F)) (q0 x0 wq) (qr0 x0 wqr) (k0 x0 wd wuk cr0 wukr) (v0 x0 wd wuv cr0 wuvr)
  | 8 => k0_pay40 (k0_pay37 (kr0 x0 wkr) (ones (F := F)) (q0 x0 wq) (qr0 x0 wqr) (k0 x0 wd wuk cr0 wukr)) (k0_pay38 (kr0 x0 wkr) (q0 x0 wq) (qr0 x0 wqr) (k0 x0 wd wuk cr0 wukr) (v0 x0 wd wuv cr0 wuvr)) (k0_pay39 (F := F))
  | 9 => k0_pay41 (kr0 x0 wkr) (ones (F := F)) (q0 x0 wq) (qr0 x0 wqr) (k0 x0 wd wuk cr0 wukr) (v0 x0 wd wuv cr0 wuvr)
  | 10 => k0_pay42 (kr0 x0 wkr) (ones (F := F)) (q0 x0 wq) (qr0 x0 wqr) (k0 x0 wd wuk cr0 wukr) (v0 x0 wd wuv cr0 wuvr)
  | 11 => k0_pay44 (kr0 x0 wkr) (ones (F := F)) (qr0 x0 wqr) (k0 x0 wd wuk cr0 wukr) (v0 x0 wd wuv cr0 wuvr) (k0_pay43 (q0 x0 wq))
  | 12 => k0_pay45 (kr0 x0 wkr) (ones (F := F)) (q0 x0 wq) (qr0 x0 wqr) (k0 x0 wd wuk cr0 wukr) (v0 x0 wd wuv cr0 wuvr)
  | 13 => k0_pay48 (v0 x0 wd wuv cr0 wuvr) (k0_pay46 (kr0 x0 wkr) (q0 x0 wq) (qr0 x0 wqr) (k0 x0 wd wuk cr0 wukr)) (k0_pay47 (kr0 x0 wkr) (ones (F := F)) (q0 x0 wq) (qr0 x0 wqr) (k0 x0 wd wuk cr0 wukr))
  | 14 => k0_pay49 (kr0 x0 wkr) (ones (F := F)) (q0 x0 wq) (qr0 x0 wqr) (k0 x0 wd wuk cr0 wukr) (v0 x0 wd wuv cr0 wuvr)
  | 15 => k0_pay51 (k0_pay50 (kr0 x0 wkr) (ones (F := F)) (q0 x0 wq) (qr0 x0 wqr) (k0 x0 wd wuk cr0 wukr) (v0 x0 wd wuv cr0 wuvr))
  | ⟨_ + 16, h⟩ => absurd h (Nat.not_lt.2 (Nat.le_add_left _ _))
end Batch0

section Batch1
variable (x1 : Vec F S1x256x1024 .f32) (wd : Vec F S1024x64 .f32) (wuk wuv : Vec F S64x1024 .f32)
  (wq : Vec F S1024x1024 .f32) (wqr : Vec F S1024x512 .f32) (wkr : Vec F S1024x32 .f32)
  (cr1 : Vec F S1x256x64 .bf16) (wukr wuvr : Vec F S64x1024 .bf16)

def q1 : FVec F S256x1024 .f32 := k0_pay53 (k0_pay13 x1 wq)
def qr1 : FVec F S256x512 .f32 := k0_pay54 (k0_pay14 x1 wqr)
def kr1 : FVec F S256x32 .f32 := k0_pay15 x1 wkr
def k1 : FVec F S256x1024 .f32 := k0_pay55 (km1 x1 wd wuk) cr1 wukr
def v1 : FVec F S256x1024 .f32 := k0_pay57 (vm1 x1 wd wuv) (k0_pay56 cr1) wuvr (constant S256x1024 .f32 0x00000000#32)

def headPay1 : Fin 16 → FVec F S256x64 .f32
  | 0 => k0_pay58 (kr1 x1 wkr) (vm1 x1 wd wuv) (ones (F := F)) (q1 x1 wq) (qr1 x1 wqr) (k1 x1 wd wuk cr1 wukr) (k0_pay56 cr1) wuvr (constant S256x1024 .f32 0x00000000#32)
  | 1 => k0_pay59 (kr1 x1 wkr) (vm1 x1 wd wuv) (ones (F := F)) (q1 x1 wq) (qr1 x1 wqr) (k1 x1 wd wuk cr1 wukr) (k0_pay56 cr1) wuvr (constant S256x1024 .f32 0x00000000#32)
  | 2 => k0_pay61 (ones (F := F)) (v1 x1 wd wuv cr1 wuvr) (k0_pay60 (kr1 x1 wkr) (q1 x1 wq) (qr1 x1 wqr) (k1 x1 wd wuk cr1 wukr))
  | 3 => k0_pay62 (kr1 x1 wkr) (ones (F := F)) (q1 x1 wq) (qr1 x1 wqr) (k1 x1 wd wuk cr1 wukr) (v1 x1 wd wuv cr1 wuvr)
  | 4 => k0_pay66 (k0_pay64 (kr1 x1 wkr) (q1 x1 wq) (qr1 x1 wqr) (k1 x1 wd wuk cr1 wukr) (v1 x1 wd wuv cr1 wuvr)) (k0_pay65 (kr1 x1 wkr) (ones (F := F)) (q1 x1 wq) (qr1 x1 wqr) (k1 x1 wd wuk cr1 wukr))
  | 5 => k0_pay67 (kr1 x1 wkr) (ones (F := F)) (q1 x1 wq) (qr1 x1 wqr) (k1 x1 wd wuk cr1 wukr) (v1 x1 wd wuv cr1 wuvr)
  | 6 => k0_pay68 (kr1 x1 wkr) (ones (F := F)) (q1 x1 wq) (qr1 x1 wqr) (k1 x1 wd wuk cr1 wukr) (v1 x1 wd wuv cr1 wuvr)
  | 7 => k0_pay72 (kr1 x1 wkr) (ones (F := F)) (v1 x1 wd wuv cr1 wuvr) (k0_pay69 (q1 x1 wq)) (k0_pay70 (k1 x1 wd wuk cr1 wukr)) (k0_pay71 (qr1 x1 wqr))
  | 8 => k0_pay73 (kr1 x1 wkr) (ones (F := F)) (q1 x1 wq) (qr1 x1 wqr) (k1 x1 wd wuk cr1 wukr) (v1 x1 wd wuv cr1 wuvr)
  | 9 => k0_pay77 (k0_pay74 (kr1 x1 wkr) (q1 x1 wq) (qr1 x1 wqr) (k1 x1 wd wuk cr1 wukr)) (k0_pay75 (kr1 x1 wkr) (ones (F := F)) (q1 x1 wq) (qr1 x1 wqr) (k1 x1 wd wuk cr1 wukr)) (k0_pay76 (v1 x1 wd wuv cr1 wuvr)) (constant S256x64 .f32 0x00000000#32)
  | 10 => k0_pay78 (kr1 x1 wkr) (ones (F := F)) (q1 x1 wq) (qr1 x1 wqr) (k1 x1 wd wuk cr1 wukr) (v1 x1 wd wuv cr1 wuvr)
  | 11 => k0_pay80 (k0_pay79 (kr1 x1 wkr) (ones (F := F)) (q1 x1 wq) (qr1 x1 wqr) (k1 x1 wd wuk cr1 wukr) (v1 x1 wd wuv cr1 wuvr))
  | 12 => k0_pay81 (kr1 x1 wkr) (ones (F := F)) (q1 x1 wq) (qr1 x1 wqr) (k1 x1 wd wuk cr1 wukr) (v1 x1 wd wuv cr1 wuvr)
  | 13 => k0_pay82 (kr1 x1 wkr) (ones (F := F)) (q1 x1 wq) (qr1 x1 wqr) (k1 x1 wd wuk cr1 wukr) (v1 x1 wd wuv cr1 wuvr)
  | 14 => k0_pay84 (ones (F := F)) (v1 x1 wd wuv cr1 wuvr) (k0_pay83 (kr1 x1 wkr) (q1 x1 wq) (qr1 x1 wqr) (k1 x1 wd wuk cr1 wukr))
  | 15 => k0_pay85 (kr1 x1 wkr) (ones (F := F)) (q1 x1 wq) (qr1 x1 wqr) (k1 x1 wd wuk cr1 wukr) (v1 x1 wd wuv cr1 wuvr)
  | ⟨_ + 16, h⟩ => absurd h (Nat.not_lt.2 (Nat.le_add_left _ _))
end Batch1

theorem slices64 : ∀ h : Fin 16, S256x1024.Slices ![0, 64 * h.val] S256x64 := by decide
theorem slices32 : ∀ h : Fin 16, S256x512.Slices ![0, 32 * h.val] S256x32 := by decide

def headFn (h : Fin 16) (kr : FVec F S256x32 .f32) (ones : FVec F S256x1 .f32) (q : FVec F S256x1024 .f32)
    (qr : FVec F S256x512 .f32) (k v : FVec F S256x1024 .f32) : FVec F S256x64 .f32 :=
  have qh : FVec F S256x64 .f32 := extractStridedSlice S256x64 ![0, 64 * h.val] q (slices64 h)
  have kh : FVec F S256x64 .f32 := extractStridedSlice S256x64 ![0, 64 * h.val] k (slices64 h)
  have qrh : FVec F S256x32 .f32 := extractStridedSlice S256x32 ![0, 32 * h.val] qr (slices32 h)
  have s1 : FVec F S256x256 .f32 := matmul dot_S256x64_S256x64_S256x256_1_1_0_0_n_n none qh kh (constant S256x256 .f32 0x00000000#32)
  have s2 : FVec F S256x256 .f32 := matmul dot_S256x32_S256x32_S256x256_1_1_0_0_n_n none qrh kr (constant S256x256 .f32 0x00000000#32)
  have p : FVec F S256x256 .f32 := exp (addf s1 s2)
  have rs : FVec F S256x1 .f32 := matmul dot_S256x256_S256x1_S256x1_1_0_0_1_n_n none p ones (constant S256x1 .f32 0x00000000#32)
  have vh : FVec F S256x64 .f32 := extractStridedSlice S256x64 ![0, 64 * h.val] v (slices64 h)
  have o : FVec F S256x64 .f32 := matmul dot_S256x256_S256x64_S256x64_1_0_0_1_n_n none p vh (constant S256x64 .f32 0x00000000#32)
  have inv : FVec F S256x1 .f32 := divf (broadcast S256x1 (Scalar.ofBits .f32 0x3F800000#32)) rs
  shapeCast S256x64 (mulf o (broadcastTo S256x64 inv broadcasts_S256x1_S256x64)) shapeCasts_S256x64_S256x64

def sideBySide (p : Fin 16 → FVec F S256x64 .f32) : Vec F S256x1024 .f32 :=
  fun i => p ⟨(i 1).val / 64, Nat.div_lt_of_lt_mul (i 1).isLt⟩ (ix2 (i 0) ⟨(i 1).val % 64, Nat.mod_lt _ (by decide)⟩)

section Out
variable (x0 x1 : Vec F S1x256x1024 .f32) (wd : Vec F S1024x64 .f32) (wuk wuv : Vec F S64x1024 .f32)
  (wq : Vec F S1024x1024 .f32) (wqr : Vec F S1024x512 .f32) (wkr : Vec F S1024x32 .f32) (wo : Vec F S1024x1024 .f32)
  (cr0 cr1 : Vec F S1x256x64 .bf16) (wukr wuvr : Vec F S64x1024 .bf16)

def outB0 : FVec F S1x256x1024 .f32 := k0_pay52 (sideBySide (headPay0 x0 wd wuk wuv wq wqr wkr cr0 wukr wuvr)) wo
def outB1 : FVec F S1x256x1024 .f32 := k0_pay86 (sideBySide (headPay1 x1 wd wuk wuv wq wqr wkr cr1 wukr wuvr)) wo
end Out

end Cert.KernelIdeal.Hand

end
-- ==== Proof.Proto.lean ====
import proofs.«900965_g7700000000000966_dist_mla_v7x_xyz2x2x2_y_b2_s256_d1024_dc64_f32_1_alg».proof.Proof.KTerms
import proofs.«900965_g7700000000000966_dist_mla_v7x_xyz2x2x2_y_b2_s256_d1024_dc64_f32_1_alg».proof.Proof.Gen.KernelIdeal
import proofs.«900965_g7700000000000966_dist_mla_v7x_xyz2x2x2_y_b2_s256_d1024_dc64_f32_1_alg».proof.Proof.Gen.KernelIdeal.Launch
import proofs.«900965_g7700000000000966_dist_mla_v7x_xyz2x2x2_y_b2_s256_d1024_dc64_f32_1_alg».proof.Proof.Gen.KernelIdeal.Points
import Idealize.ShloMosaic.Lib.Pipeline.Launch
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Unit

abbrev UU : Type := UR sig nD τ × (UB × Counters)

local notation "𝕄" => MT nD τ sig Unit (Elt F) ℕ UU ℕ

abbrev EP : Emb (UR sig nD τ) (MT nD τ sig Unit (Elt F) ℕ UU ℕ) := embL

abbrev ERC : Emb (UB × Counters) (MT nD τ sig Unit (Elt F) ℕ UU ℕ) := embR
def ER : Emb UB (MT nD τ sig Unit (Elt F) ℕ UU ℕ) := (Emb.inl : Emb UB (UB × Counters)).trans ERC
instance ER_landsIn : (ER : Emb UB (MT nD τ sig Unit (Elt F) ℕ UU ℕ)).LandsIn (upEmb : UEmb _ (MT nD τ sig Unit (Elt F) ℕ UU ℕ)) := by
  unfold ER ERC embR; infer_instance

variable (m : (ℓ : Loc nD τ sig) → Buf (Elt F) ℓ) (ρ : Dev nD → PrngReg)

def s₀ : MemSt nD τ sig (Elt F) := ⟨m, fun _ => 0, ρ⟩

def nbr (c : Dev nD) : Dev nD := ⟨k0_dev1 c, k0_dev1_lt c⟩

theorem nbr_nbr : ∀ c : Dev nD, nbr (nbr c) = c := by decide +kernel
theorem dev2_eq (c : Dev nD) : (⟨k0_dev2 c, k0_dev2_lt c⟩ : Dev nD) = nbr c := Fin.ext ((k0_dev2_eq c).trans (k0_dev1_eq c).symm)
theorem dev3_eq (c : Dev nD) : (⟨k0_dev3 c, k0_dev3_lt c⟩ : Dev nD) = nbr c := Fin.ext ((k0_dev3_eq c).trans (k0_dev1_eq c).symm)
theorem dev4_eq (c : Dev nD) : (⟨k0_dev4 c, k0_dev4_lt c⟩ : Dev nD) = nbr c := Fin.ext ((k0_dev4_eq c).trans (k0_dev1_eq c).symm)

theorem zero_offsets2 : (![0, 0] : Fin 2 → Nat) = fun _ => 0 := funext fun a => by fin_cases a <;> rfl

def pair : Dev nD ≃ Dev nD := ⟨nbr, nbr, nbr_nbr, nbr_nbr⟩

abbrev sM0 : Memref sig .tc .vmem S2x256x64 .bf16 := Memref.whole cc0_scratch0
abbrev rM0 : Memref sig .tc .vmem S2x256x64 .bf16 := Memref.whole cc0_scratch1
abbrev sM1 : Memref sig .tc .vmem S64x1024 .bf16 := Memref.whole cc0_scratch2
abbrev rM1 : Memref sig .tc .vmem S64x1024 .bf16 := Memref.whole cc0_scratch3
abbrev sM2 : Memref sig .tc .vmem S64x1024 .bf16 := Memref.whole cc0_scratch4
abbrev rM2 : Memref sig .tc .vmem S64x1024 .bf16 := Memref.whole cc0_scratch5
abbrev aM0 : Memref sig .tc .vmem S2x256x1024 .f32 := Memref.whole cc0_stg0_0
abbrev aM1 : Memref sig .tc .vmem S1024x64 .f32 := Memref.whole cc0_stg1_0
abbrev aM2 : Memref sig .tc .vmem S64x1024 .f32 := Memref.whole cc0_stg2_0
abbrev aM3 : Memref sig .tc .vmem S64x1024 .f32 := Memref.whole cc0_stg3_0
abbrev aM4 : Memref sig .tc .vmem S1024x1024 .f32 := Memref.whole cc0_stg4_0
abbrev aM5 : Memref sig .tc .vmem S1024x512 .f32 := Memref.whole cc0_stg5_0
abbrev aM6 : Memref sig .tc .vmem S1024x32 .f32 := Memref.whole cc0_stg6_0
abbrev aM7 : Memref sig .tc .vmem S1024x1024 .f32 := Memref.whole cc0_stg7_0
abbrev oM : Memref sig .tc .vmem S256x1024 .f32 := Memref.whole cc0_scratch6
abbrev vM : Memref sig .tc .vmem S2x256x1024 .f32 := Memref.whole cc0_scratch7
abbrev yM : Memref sig .tc .hbm S2x256x1024 .f32 := Memref.whole main_v1

abbrev barS : Sem sig := (SemArray.scalar (sig.barrier 0 rfl) : Sems sig S_).sem
abbrev sendS0 : DmaSems sig S_ := (cc0_scratch8.slice (Rect.unit (s := S3) ![0] S1.size inb_S3_S1_0)).squeeze S_ squeezes_S1_S_
abbrev recvS0 : DmaSems sig S_ := (cc0_scratch9.slice (Rect.unit (s := S3) ![0] S1.size inb_S3_S1_0)).squeeze S_ squeezes_S1_S_
abbrev sendS1 : DmaSems sig S_ := (cc0_scratch8.slice (Rect.unit (s := S3) ![1] S1.size inb_S3_S1_1)).squeeze S_ squeezes_S1_S_
abbrev recvS1 : DmaSems sig S_ := (cc0_scratch9.slice (Rect.unit (s := S3) ![1] S1.size inb_S3_S1_1)).squeeze S_ squeezes_S1_S_
abbrev sendS2 : DmaSems sig S_ := (cc0_scratch8.slice (Rect.unit (s := S3) ![2] S1.size inb_S3_S1_2)).squeeze S_ squeezes_S1_S_
abbrev recvS2 : DmaSems sig S_ := (cc0_scratch9.slice (Rect.unit (s := S3) ![2] S1.size inb_S3_S1_2)).squeeze S_ squeezes_S1_S_
abbrev storeS0 : DmaSems sig S_ := (cc0_scratch10.slice (Rect.unit (s := S2) ![0] S1.size inb_S2_S1_0)).squeeze S_ squeezes_S1_S_
abbrev storeS1 : DmaSems sig S_ := (cc0_scratch10.slice (Rect.unit (s := S2) ![1] S1.size inb_S2_S1_1)).squeeze S_ squeezes_S1_S_

abbrev barCell (c : Dev nD) : GSem nD τ sig := ((c : Thread nD τ), .reg barS)
abbrev sendCell0 (c : Dev nD) : GSem nD τ sig := ((c : Thread nD τ), .dma sendS0.sem)
abbrev recvCell0 (c : Dev nD) : GSem nD τ sig := ((c : Thread nD τ), .dma recvS0.sem)
abbrev sendCell1 (c : Dev nD) : GSem nD τ sig := ((c : Thread nD τ), .dma sendS1.sem)
abbrev recvCell1 (c : Dev nD) : GSem nD τ sig := ((c : Thread nD τ), .dma recvS1.sem)
abbrev sendCell2 (c : Dev nD) : GSem nD τ sig := ((c : Thread nD τ), .dma sendS2.sem)
abbrev recvCell2 (c : Dev nD) : GSem nD τ sig := ((c : Thread nD τ), .dma recvS2.sem)

abbrev osem : Fin 8 → SemLoc sig := fun
  | 0 => .dma sendS0.sem | 1 => .dma sendS1.sem | 2 => .dma sendS2.sem
  | 3 => .dma recvS0.sem | 4 => .dma recvS1.sem | 5 => .dma recvS2.sem
  | 6 => .dma storeS0.sem | 7 => .dma storeS1.sem

abbrev csem : Fin 7 → SemLoc sig := fun
  | 0 => .reg barS | 1 => .dma sendS0.sem | 2 => .dma sendS1.sem | 3 => .dma sendS2.sem
  | 4 => .dma recvS0.sem | 5 => .dma recvS1.sem | 6 => .dma recvS2.sem
abbrev kcell (ck : Dev nD × Fin 7) : GSem nD τ sig := ((ck.1 : Thread nD τ), csem ck.2)

abbrev N0 : ℕ := rM0.view.dmaCredit
abbrev N1 : ℕ := rM1.view.dmaCredit
theorem N0_pos : 0 < N0 := View.dmaCredit_pos _ (by decide)
theorem N1_pos : 0 < N1 := View.dmaCredit_pos _ (by decide)

def stg0 (c : Dev nD) : (cc0_stg0_0 : Ref sig .tc).ty.Contents (Elt F) :=
  (win0_0.blk (0 : Fin 1)).view.read (Elt F) (m ((c : Thread nD τ).loc main_arg0))

def stg1 (c : Dev nD) : (cc0_stg1_0 : Ref sig .tc).ty.Contents (Elt F) :=
  (win0_1.blk (0 : Fin 1)).view.read (Elt F) (m ((c : Thread nD τ).loc main_arg1))

def stg2 (c : Dev nD) : (cc0_stg2_0 : Ref sig .tc).ty.Contents (Elt F) :=
  (win0_2.blk (0 : Fin 1)).view.read (Elt F) (m ((c : Thread nD τ).loc main_arg2))

def stg3 (c : Dev nD) : (cc0_stg3_0 : Ref sig .tc).ty.Contents (Elt F) :=
  (win0_3.blk (0 : Fin 1)).view.read (Elt F) (m ((c : Thread nD τ).loc main_arg3))

def stg4 (c : Dev nD) : (cc0_stg4_0 : Ref sig .tc).ty.Contents (Elt F) :=
  (win0_4.blk (0 : Fin 1)).view.read (Elt F) (m ((c : Thread nD τ).loc main_arg4))

def stg5 (c : Dev nD) : (cc0_stg5_0 : Ref sig .tc).ty.Contents (Elt F) :=
  (win0_5.blk (0 : Fin 1)).view.read (Elt F) (m ((c : Thread nD τ).loc main_arg5))

def stg6 (c : Dev nD) : (cc0_stg6_0 : Ref sig .tc).ty.Contents (Elt F) :=
  (win0_6.blk (0 : Fin 1)).view.read (Elt F) (m ((c : Thread nD τ).loc main_arg6))

def stg7 (c : Dev nD) : (cc0_stg7_0 : Ref sig .tc).ty.Contents (Elt F) :=
  (win0_7.blk (0 : Fin 1)).view.read (Elt F) (m ((c : Thread nD τ).loc main_arg7))

def ld1 (c : Dev nD) : Vec F S1024x64 .f32 :=
  View.readAt (Elt F) aM1.view (Rect.unit (s := S1024x64) ![0, 0] S1024x64.size inb_S1024x64_S1024x64_0_0).toLoadRect (stg1 m c)

def ld2 (c : Dev nD) : Vec F S64x1024 .f32 :=
  View.readAt (Elt F) aM2.view (Rect.unit (s := S64x1024) ![0, 0] S64x1024.size inb_S64x1024_S64x1024_0_0).toLoadRect (stg2 m c)

def ld3 (c : Dev nD) : Vec F S64x1024 .f32 :=
  View.readAt (Elt F) aM3.view (Rect.unit (s := S64x1024) ![0, 0] S64x1024.size inb_S64x1024_S64x1024_0_0).toLoadRect (stg3 m c)

def ld4 (c : Dev nD) : Vec F S1024x1024 .f32 :=
  View.readAt (Elt F) aM4.view (Rect.unit (s := S1024x1024) ![0, 0] S1024x1024.size inb_S1024x1024_S1024x1024_0_0).toLoadRect (stg4 m c)

def ld5 (c : Dev nD) : Vec F S1024x512 .f32 :=
  View.readAt (Elt F) aM5.view (Rect.unit (s := S1024x512) ![0, 0] S1024x512.size inb_S1024x512_S1024x512_0_0).toLoadRect (stg5 m c)

def ld6 (c : Dev nD) : Vec F S1024x32 .f32 :=
  View.readAt (Elt F) aM6.view (Rect.unit (s := S1024x32) ![0, 0] S1024x32.size inb_S1024x32_S1024x32_0_0).toLoadRect (stg6 m c)

def ld7 (c : Dev nD) : Vec F S1024x1024 .f32 :=
  View.readAt (Elt F) aM7.view (Rect.unit (s := S1024x1024) ![0, 0] S1024x1024.size inb_S1024x1024_S1024x1024_0_0).toLoadRect (stg7 m c)

abbrev rX0 : Rect S2x256x1024 := Rect.unit (s := S2x256x1024) ![0, 0, 0] S1x256x1024.size inb_S2x256x1024_S1x256x1024_0_0_0
abbrev rX1 : Rect S2x256x1024 := Rect.unit (s := S2x256x1024) ![1, 0, 0] S1x256x1024.size inb_S2x256x1024_S1x256x1024_1_0_0
abbrev rC0 : Rect S2x256x64 := Rect.unit (s := S2x256x64) ![0, 0, 0] S1x256x64.size inb_S2x256x64_S1x256x64_0_0_0
abbrev rC1 : Rect S2x256x64 := Rect.unit (s := S2x256x64) ![1, 0, 0] S1x256x64.size inb_S2x256x64_S1x256x64_1_0_0

def x0 (c : Dev nD) : Vec F S1x256x1024 .f32 :=
  View.readAt (Elt F) aM0.view rX0.toLoadRect (stg0 m c)
def x1 (c : Dev nD) : Vec F S1x256x1024 .f32 :=
  View.readAt (Elt F) aM0.view rX1.toLoadRect (stg0 m c)

def sent0 (c : Dev nD) : (cc0_scratch0 : Ref sig .tc).ty.Contents (Elt F) :=
  sM0.view.writes (Elt F) sM0.view.junk
    [⟨rC1, cs1 (x1 m c) (ld1 m c)⟩, ⟨rC0, cs0 (x0 m c) (ld1 m c)⟩]
def sent1 (c : Dev nD) : (cc0_scratch2 : Ref sig .tc).ty.Contents (Elt F) := wukS (ld2 m c)
def sent2 (c : Dev nD) : (cc0_scratch4 : Ref sig .tc).ty.Contents (Elt F) := wuvS (ld3 m c)

def rPts0 (d : Dev nD) (f : (cc0_scratch1 : Ref sig .tc).ty.Contents (Elt F)) : sProp 𝕄 :=
  (rM0.view.loc (d : Thread nD τ) ↦[rM0.view.set]{fullShare} f)

def sPts0 (d : Dev nD) (q : PosShare TreeShare) : sProp 𝕄 :=
  (sM0.view.loc (d : Thread nD τ) ↦[sM0.view.set]{q} sent0 m d)

def rPts1 (d : Dev nD) (f : (cc0_scratch3 : Ref sig .tc).ty.Contents (Elt F)) : sProp 𝕄 :=
  (rM1.view.loc (d : Thread nD τ) ↦[rM1.view.set]{fullShare} f)

def sPts1 (d : Dev nD) (q : PosShare TreeShare) : sProp 𝕄 :=
  (sM1.view.loc (d : Thread nD τ) ↦[sM1.view.set]{q} sent1 m d)

def rPts2 (d : Dev nD) (f : (cc0_scratch5 : Ref sig .tc).ty.Contents (Elt F)) : sProp 𝕄 :=
  (rM2.view.loc (d : Thread nD τ) ↦[rM2.view.set]{fullShare} f)

def sPts2 (d : Dev nD) (q : PosShare TreeShare) : sProp 𝕄 :=
  (sM2.view.loc (d : Thread nD τ) ↦[sM2.view.set]{q} sent2 m d)

def barPay (c : Dev nD) : sProp 𝕄 :=
  iprop((∃ f, rPts0 (nbr c) f) ∗ (∃ f, rPts1 (nbr c) f) ∗ (∃ f, rPts2 (nbr c) f)
    ∗ reached ER (recvCell0 (nbr c)) 0 ∗ reached ER (recvCell1 (nbr c)) 0 ∗ reached ER (recvCell2 (nbr c)) 0)

def recvPay0 (c : Dev nD) : sProp 𝕄 := rPts0 c (sent0 m (nbr c))
def sendPay0 (c : Dev nD) : sProp 𝕄 := sPts0 m c fullShare.right

def recvPay1 (c : Dev nD) : sProp 𝕄 := rPts1 c (sent1 m (nbr c))
def sendPay1 (c : Dev nD) : sProp 𝕄 := sPts1 m c fullShare.right

def recvPay2 (c : Dev nD) : sProp 𝕄 := rPts2 c (sent2 m (nbr c))
def sendPay2 (c : Dev nD) : sProp 𝕄 := sPts2 m c fullShare.right

abbrev IsCell (sm : SemLoc sig) : Prop :=
  sm = .reg barS ∨ sm = .dma sendS0.sem ∨ sm = .dma sendS1.sem ∨ sm = .dma sendS2.sem ∨ sm = .dma recvS0.sem ∨ sm = .dma recvS1.sem ∨ sm = .dma recvS2.sem

def amtOf (sm : SemLoc sig) : ℕ :=
  if sm = .reg barS then 1 else if sm = .dma sendS0.sem then N0 else if sm = .dma recvS0.sem then N0 else N1

def payOf (d : Dev nD) (sm : SemLoc sig) : sProp 𝕄 :=
  if sm = .reg barS then barPay d
  else if sm = .dma sendS0.sem then sendPay0 m d else if sm = .dma sendS1.sem then sendPay1 m d else if sm = .dma sendS2.sem then sendPay2 m d
  else if sm = .dma recvS0.sem then recvPay0 m d else if sm = .dma recvS1.sem then recvPay1 m d else if sm = .dma recvS2.sem then recvPay2 m d
  else iprop(emp)

-- The exchange as a schedule: every cell has one round of one duty, whose payload is what its landing hands the waiter.
def Rd : Rounds.Schedule (GSem nD τ sig) Unit 𝕄 where
  duties g r := if r = 0 ∧ g.1.2 = .tc ∧ IsCell g.2 then {()} else ∅
  unitless _ := False
  amount g _ _ := amtOf g.2
  payload g _ _ := payOf m g.1.1 g.2
  amount_pos g _ _ _ := by
    unfold amtOf; split_ifs
    · exact Nat.one_pos
    · exact N0_pos
    · exact N0_pos
    · exact N1_pos

instance Rd_payload_storable (g : GSem nD τ sig) (r : ℕ) (d : Unit) :
    BI.Storable (upEmb : UEmb _ 𝕄) ((Rd (F := F) m).payload g r d) := by
  show BI.Storable upEmb (payOf m g.1.1 g.2)
  unfold payOf barPay sendPay0 sendPay1 sendPay2 recvPay0 recvPay1 recvPay2 sPts0 sPts1 sPts2 rPts0 rPts1 rPts2
  (repeat' split) <;> infer_instance

section Sched
variable (c : Dev nD)

theorem duties_bar : (Rd (F := F) m).duties (barCell c) 0 = {()} := by
  dsimp only [Rd]; exact if_pos ⟨rfl, rfl, by unfold IsCell; simp⟩
theorem amount_bar (u : Unit) : (Rd (F := F) m).amount (barCell c) 0 u = 1 := by
  dsimp only [Rd]; unfold amtOf; exact if_pos rfl
theorem expect_bar : (Rd (F := F) m).expect (barCell c) 0 = 1 := by
  unfold Schedule.expect Schedule.amountOf; rw [duties_bar, Finset.sum_singleton, amount_bar]
theorem payload_bar (u : Unit) : (Rd (F := F) m).payload (barCell c) 0 u = barPay c := by
  dsimp only [Rd]; unfold payOf; exact if_pos rfl
theorem rest_bar : bigSep ((Rd (F := F) m).duties (barCell c) 0 \ ∅) (fun u => (Rd (F := F) m).payload (barCell c) 0 u) = barPay c := by
  rw [Finset.sdiff_empty, duties_bar, bigSep_singleton, payload_bar]
theorem duties_send0 : (Rd (F := F) m).duties (sendCell0 c) 0 = {()} := by
  dsimp only [Rd]; exact if_pos ⟨rfl, rfl, by unfold IsCell; simp⟩
theorem amount_send0 (u : Unit) : (Rd (F := F) m).amount (sendCell0 c) 0 u = N0 := by
  dsimp only [Rd]; unfold amtOf; rw [if_neg (fun h => by cases h), if_pos rfl]
theorem payload_send0 (u : Unit) : (Rd (F := F) m).payload (sendCell0 c) 0 u = sendPay0 m c := by
  dsimp only [Rd]; unfold payOf; rw [if_neg (fun h => by cases h), if_pos rfl]
theorem duties_send1 : (Rd (F := F) m).duties (sendCell1 c) 0 = {()} := by
  dsimp only [Rd]; exact if_pos ⟨rfl, rfl, by unfold IsCell; simp⟩
theorem amount_send1 (u : Unit) : (Rd (F := F) m).amount (sendCell1 c) 0 u = N1 := by
  dsimp only [Rd]; unfold amtOf; rw [if_neg (fun h => by cases h), if_neg (by decide), if_neg (by decide)]
theorem payload_send1 (u : Unit) : (Rd (F := F) m).payload (sendCell1 c) 0 u = sendPay1 m c := by
  dsimp only [Rd]; unfold payOf; rw [if_neg (fun h => by cases h), if_neg (by decide), if_pos rfl]
theorem duties_send2 : (Rd (F := F) m).duties (sendCell2 c) 0 = {()} := by
  dsimp only [Rd]; exact if_pos ⟨rfl, rfl, by unfold IsCell; simp⟩
theorem amount_send2 (u : Unit) : (Rd (F := F) m).amount (sendCell2 c) 0 u = N1 := by
  dsimp only [Rd]; unfold amtOf; rw [if_neg (fun h => by cases h), if_neg (by decide), if_neg (by decide)]
theorem payload_send2 (u : Unit) : (Rd (F := F) m).payload (sendCell2 c) 0 u = sendPay2 m c := by
  dsimp only [Rd]; unfold payOf; rw [if_neg (fun h => by cases h), if_neg (by decide), if_neg (by decide), if_pos rfl]
theorem duties_recv0 : (Rd (F := F) m).duties (recvCell0 c) 0 = {()} := by
  dsimp only [Rd]; exact if_pos ⟨rfl, rfl, by unfold IsCell; simp⟩
theorem amount_recv0 (u : Unit) : (Rd (F := F) m).amount (recvCell0 c) 0 u = N0 := by
  dsimp only [Rd]; unfold amtOf; rw [if_neg (fun h => by cases h), if_neg (by decide), if_pos rfl]
theorem payload_recv0 (u : Unit) : (Rd (F := F) m).payload (recvCell0 c) 0 u = recvPay0 m c := by
  dsimp only [Rd]; unfold payOf; rw [if_neg (fun h => by cases h), if_neg (by decide), if_neg (by decide), if_neg (by decide), if_pos rfl]
theorem duties_recv1 : (Rd (F := F) m).duties (recvCell1 c) 0 = {()} := by
  dsimp only [Rd]; exact if_pos ⟨rfl, rfl, by unfold IsCell; simp⟩
theorem amount_recv1 (u : Unit) : (Rd (F := F) m).amount (recvCell1 c) 0 u = N1 := by
  dsimp only [Rd]; unfold amtOf; rw [if_neg (fun h => by cases h), if_neg (by decide), if_neg (by decide)]
theorem payload_recv1 (u : Unit) : (Rd (F := F) m).payload (recvCell1 c) 0 u = recvPay1 m c := by
  dsimp only [Rd]; unfold payOf; rw [if_neg (fun h => by cases h), if_neg (by decide), if_neg (by decide), if_neg (by decide), if_neg (by decide), if_pos rfl]
theorem duties_recv2 : (Rd (F := F) m).duties (recvCell2 c) 0 = {()} := by
  dsimp only [Rd]; exact if_pos ⟨rfl, rfl, by unfold IsCell; simp⟩
theorem amount_recv2 (u : Unit) : (Rd (F := F) m).amount (recvCell2 c) 0 u = N1 := by
  dsimp only [Rd]; unfold amtOf; rw [if_neg (fun h => by cases h), if_neg (by decide), if_neg (by decide)]
theorem payload_recv2 (u : Unit) : (Rd (F := F) m).payload (recvCell2 c) 0 u = recvPay2 m c := by
  dsimp only [Rd]; unfold payOf; rw [if_neg (fun h => by cases h), if_neg (by decide), if_neg (by decide), if_neg (by decide), if_neg (by decide), if_neg (by decide), if_pos rfl]
theorem duties_later (g : GSem nD τ sig) : ∀ r, 1 ≤ r → (Rd (F := F) m).duties g r = ∅ :=
  fun r hr => by dsimp only [Rd]; rw [if_neg fun h => by omega]

end Sched

def crd0 (c : Dev nD) : Vec F S1x256x64 .bf16 :=
  View.readAt (Elt F) rM0.view rC0.toLoadRect (sent0 m (nbr c))
def crd1 (c : Dev nD) : Vec F S1x256x64 .bf16 :=
  View.readAt (Elt F) rM0.view rC1.toLoadRect (sent0 m (nbr c))
def wukr (c : Dev nD) : Vec F S64x1024 .bf16 :=
  View.readAt (Elt F) rM1.view (Rect.unit (s := S64x1024) ![0, 0] S64x1024.size inb_S64x1024_S64x1024_0_0).toLoadRect (sent1 m (nbr c))
def wuvr (c : Dev nD) : Vec F S64x1024 .bf16 :=
  View.readAt (Elt F) rM2.view (Rect.unit (s := S64x1024) ![0, 0] S64x1024.size inb_S64x1024_S64x1024_0_0).toLoadRect (sent2 m (nbr c))

-- A device's result as a pure term of its own arguments and of what its neighbour sent.
def outVal (c : Dev nD) : (main_v1 : Ref sig .tc).ty.Contents (Elt F) := fun i =>
  if (i 0).val = 0 then
    outB0 (x0 m c) (ld1 m c) (ld2 m c) (ld3 m c) (ld4 m c) (ld5 m c) (ld6 m c) (ld7 m c) (crd0 m c) (wukr m c) (wuvr m c)
      (ValueIdx.ix3 (0 : Fin 1) (i 1) (i 2))
  else
    outB1 (x1 m c) (ld1 m c) (ld2 m c) (ld3 m c) (ld4 m c) (ld5 m c) (ld6 m c) (ld7 m c) (crd1 m c) (wukr m c) (wuvr m c)
      (ValueIdx.ix3 (0 : Fin 1) (i 1) (i 2))

def O3 (c : Dev nD) : CellTallies nD τ sig Unit := tallyAt (recvCell0 (nbr c)) () N0
def O2 (c : Dev nD) : CellTallies nD τ sig Unit := O3 c + tallyAt (recvCell2 (nbr c)) () N1
def O1 (c : Dev nD) : CellTallies nD τ sig Unit := O2 c + tallyAt (recvCell1 (nbr c)) () N1
def O₀ (c : Dev nD) : CellTallies nD τ sig Unit := O1 c + tallyAt (barCell (nbr c)) () 1

def L (g : GSem nD τ sig) : Finset Unit := if g.1.2 = .tc then {()} else ∅

def lv (g : GSem nD τ sig) (_ : Unit) : ℕ :=
  if g.2 = .reg barS then 1 else if g.2 = .dma recvS0.sem ∨ g.2 = .dma recvS1.sem ∨ g.2 = .dma recvS2.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def invs (K : Dev nD × Fin 7 → ℕ) (c : Dev nD) : sProp 𝕄 :=
  iprop(cellInv ER (Rd m) (K (c, 0)) (barCell c)
    ∗ cellInv ER (Rd m) (K (c, 1)) (sendCell0 c) ∗ cellInv ER (Rd m) (K (c, 2)) (sendCell1 c) ∗ cellInv ER (Rd m) (K (c, 3)) (sendCell2 c)
    ∗ cellInv ER (Rd m) (K (c, 4)) (recvCell0 c) ∗ cellInv ER (Rd m) (K (c, 5)) (recvCell1 c) ∗ cellInv ER (Rd m) (K (c, 6)) (recvCell2 c)
    ∗ cellInv ER (Rd m) (K (nbr c, 0)) (barCell (nbr c))
    ∗ cellInv ER (Rd m) (K (nbr c, 4)) (recvCell0 (nbr c)) ∗ cellInv ER (Rd m) (K (nbr c, 5)) (recvCell1 (nbr c)) ∗ cellInv ER (Rd m) (K (nbr c, 6)) (recvCell2 (nbr c)))

instance invs_persistent (K : Dev nD × Fin 7 → ℕ) (c : Dev nD) : BI.Persistent (invs m K c) := by unfold invs; infer_instance

def ghost (K : Dev nD × Fin 7 → ℕ) (c : Dev nD) : sProp 𝕄 :=
  iprop(invs m K c
    ∗ atPos ER (barCell c) 0 ∅ 0
    ∗ atPos ER (sendCell0 c) 0 ∅ 0 ∗ atPos ER (sendCell1 c) 0 ∅ 0 ∗ atPos ER (sendCell2 c) 0 ∅ 0
    ∗ atPos ER (recvCell0 c) 0 ∅ 0 ∗ atPos ER (recvCell1 c) 0 ∅ 0 ∗ atPos ER (recvCell2 c) 0 ∅ 0
    ∗ reached ER (barCell (nbr c)) 0
    ∗ reached ER (recvCell0 (nbr c)) 0 ∗ reached ER (recvCell1 (nbr c)) 0 ∗ reached ER (recvCell2 (nbr c)) 0
    ∗ reached ER (sendCell0 c) 0 ∗ reached ER (sendCell1 c) 0 ∗ reached ER (sendCell2 c) 0
    ∗ reached ER (recvCell0 c) 0 ∗ reached ER (recvCell1 c) 0 ∗ reached ER (recvCell2 c) 0
    ∗ dutyTok ER (barCell (nbr c)) 0 ()
    ∗ dutyTok ER (recvCell0 (nbr c)) 0 () ∗ dutyTok ER (recvCell1 (nbr c)) 0 () ∗ dutyTok ER (recvCell2 (nbr c)) 0 ()
    ∗ dutyTok ER (sendCell0 c) 0 () ∗ dutyTok ER (sendCell1 c) 0 () ∗ dutyTok ER (sendCell2 c) 0 ()
    ∗ semVal ((c : Thread nD τ), .dma storeS0.sem) 0 ∗ semVal ((c : Thread nD τ), .dma storeS1.sem) 0)

def outPts (c : Dev nD) (f : (main_v1 : Ref sig .tc).ty.Contents (Elt F)) : sProp 𝕄 :=
  (yM.view.loc (c : Thread nD τ)
    ↦[yM.view.set]{fullShare} f)

def start (c : Dev nD) : sProp 𝕄 :=
  iprop((∃ K, ghost m K c) ∗ cred (tallyAt (barCell c) () 1)
    ∗ cred (tallyAt (recvCell0 c) () N0) ∗ cred (tallyAt (recvCell1 c) () N1) ∗ cred (tallyAt (recvCell2 c) () N1)
    ∗ levAts L lv ∗ outPts c (m ((c : Thread nD τ).loc main_v1)))

def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f))

def Φ₀ (c : Dev nD) : sProp 𝕄 := iprop(start m c ∗ scratches c)

def Φ₁ (c : Dev nD) : sProp 𝕄 :=
  iprop(scratches c
    ∗ (semVal (sendCell0 c) 0 ∗ semVal (sendCell1 c) 0 ∗ semVal (sendCell2 c) 0
      ∗ semVal (recvCell0 c) 0 ∗ semVal (recvCell1 c) 0 ∗ semVal (recvCell2 c) 0
      ∗ semVal ((c : Thread nD τ), .dma storeS0.sem) 0 ∗ semVal ((c : Thread nD τ), .dma storeS1.sem) 0)
    ∗ outPts c (outVal m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m c | ⟨1, _⟩ => stg1 m c | ⟨2, _⟩ => stg2 m c | ⟨3, _⟩ => stg3 m c
    | ⟨4, _⟩ => stg4 m c | ⟨5, _⟩ => stg5 m c | ⟨6, _⟩ => stg6 m c | ⟨7, _⟩ => stg7 m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Hand

end
-- ==== Proof.Tail.lean ====
import proofs.«900965_g7700000000000966_dist_mla_v7x_xyz2x2x2_y_b2_s256_d1024_dc64_f32_1_alg».proof.Proof.Gen.KernelIdeal.Skeleton

set_option maxRecDepth 65536

noncomputable section

namespace Cert.KernelIdeal.Hand

open Cert.KernelIdeal Cert.KernelIdeal.Gen Idealize.ShloMosaic Idealize.SL.Sem

variable {F : FTy → Type} [FloatOps F]

noncomputable def tail21 (arg0 : Memref sig .tc .vmem S2x256x1024 .f32) (harg0 : arg0.IsWhole) (arg1 : Memref sig .tc .vmem S1024x64 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S1024x1024 .f32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x1024 .f32) (harg7 : arg7.IsWhole) (arg8 : Memref sig .tc .hbm S2x256x1024 .f32) (harg8 : arg8.IsWhole) (arg9 : Memref sig .tc .vmem S2x256x64 .bf16) (harg9 : arg9.IsWhole) (arg10 : Memref sig .tc .vmem S2x256x64 .bf16) (harg10 : arg10.IsWhole) (arg11 : Memref sig .tc .vmem S64x1024 .bf16) (harg11 : arg11.IsWhole) (arg12 : Memref sig .tc .vmem S64x1024 .bf16) (harg12 : arg12.IsWhole) (arg13 : Memref sig .tc .vmem S64x1024 .bf16) (harg13 : arg13.IsWhole) (arg14 : Memref sig .tc .vmem S64x1024 .bf16) (harg14 : arg14.IsWhole) (arg15 : Memref sig .tc .vmem S256x1024 .f32) (harg15 : arg15.IsWhole) (arg16 : Memref sig .tc .vmem S2x256x1024 .f32) (harg16 : arg16.IsWhole) (arg17 : DmaSems sig S3) (arg18 : DmaSems sig S3) (arg19 : DmaSems sig S2) (v84 : FVec F S256x512 .f32) (v87 : FVec F S256x32 .f32) (v91 : FVec F S256x1024 .f32) (v95 : FVec F S256x1024 .f32) (v100 : FVec F S256x1024 .f32) (v103 : FVec F S256x512 .f32) (v106 : FVec F S256x32 .f32) (v110 : FVec F S256x1024 .f32) (v114 : FVec F S256x1024 .f32) (v145 : FVec F S256x1 .f32) (v147 : FVec F S256x1024 .f32) (cst_127 : F .f32) :
    Prog (TpuEff nD τ sig (Elt F) Λ₀ .tc) (PUnit) := do
  let ⟨v149, v154, v159, v183, v184⟩ : Σ' (v149 : FVec F S256x512 .f32) (v154 : FVec F S256x1024 .f32) (v159 : FVec F S256x1024 .f32) (v183 : FVec F S256x256 .f32), FVec F S256x1 .f32 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v84 v87 v91 v95 v145 v147 cst_127
  let v224 : FVec F S256x64 .f32 ← k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v87 v145 v147 v149 v154 v159 v183 v184
  let ⟨v264, v265, cst_178⟩ : Σ' (v264 : FVec F S256x32 .f32) (v265 : FVec F S256x256 .f32), FVec F S256x256 .f32 ← k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v87 v145 v147 v149 v154 v159 v224
  let ⟨v303, v305, v306⟩ : Σ' (v303 : FVec F S256x1 .f32) (v305 : FVec F S256x64 .f32), FVec F S256x1 .f32 ← k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v87 v145 v147 v149 v154 v159 v264 v265 cst_178
  let v347 : FVec F S256x64 .f32 ← k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v87 v145 v147 v149 v154 v159 v303 v305 v306
  let ⟨v387, v388⟩ : Σ' (v387 : FVec F S256x256 .f32), FVec F S256x1 .f32 ← k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v87 v145 v147 v149 v154 v159 v347
  let v428 : FVec F S256x64 .f32 ← k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v87 v145 v147 v149 v154 v159 v387 v388
  let ⟨v446, v448, v453, v455, v456, cst_265⟩ : Σ' (v446 : FVec F S256x1024 .f32) (v448 : FVec F S256x512 .f32) (v453 : FVec F S256x1024 .f32) (v455 : FVec F S256x64 .bf16) (v456 : Vec F S64x1024 .bf16), FVec F S256x1024 .f32 ← k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v100 v103 v110 v428
  let ⟨v458, v498⟩ : Σ' (v458 : FVec F S256x1024 .f32), FVec F S256x256 .f32 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v106 v114 v145 v446 v448 v453 v455 v456 cst_265
  let ⟨v536, v539⟩ : Σ' (v536 : FVec F S256x64 .f32), FVec F S256x64 .f32 ← k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v106 v145 v446 v448 v453 v458 v498
  let ⟨v578, v579, v580⟩ : Σ' (v578 : FVec F S256x64 .f32) (v579 : FVec F S256x64 .f32), FVec F S256x32 .f32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v106 v145 v446 v448 v453 v458 v536 v539
  let ⟨v618, v619, v620, cst_332⟩ : Σ' (v618 : FVec F S256x256 .f32) (v619 : FVec F S256x1 .f32) (v620 : FVec F S256x64 .f32), FVec F S256x64 .f32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v106 v145 v446 v448 v453 v458 v578 v579 v580
  let v659 : FVec F S256x64 .f32 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v106 v145 v446 v448 v453 v458 v618 v619 v620 cst_332
  let v702 : FVec F S256x256 .f32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v106 v145 v446 v448 v453 v458 v659
  k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v106 v145 v446 v448 v453 v458 v702
  let v738 : DmaSems sig S1 := arg19.slice (Rect.unit (s := S2) ![1] S1.size inb_S2_S1_1)
  let v739 : DmaSems sig S_ := v738.squeeze S_ squeezes_S1_S_
  let v740 : Memref sig .tc .hbm S1x256x1024 .f32 := arg8.slice (Rect.unit (s := S2x256x1024) ![1, 0, 0] S1x256x1024.size inb_S2x256x1024_S1x256x1024_1_0_0) (fun _ => rfl)
  let v741 : Memref sig .tc .hbm S256x1024 .f32 := v740.squeeze S256x1024 squeezes_S1x256x1024_S256x1024
  let v742 : Memref sig .tc .vmem S1x256x1024 .f32 := arg16.slice (Rect.unit (s := S2x256x1024) ![1, 0, 0] S1x256x1024.size inb_S2x256x1024_S1x256x1024_1_0_0) (fun _ => rfl)
  let v743 : Memref sig .tc .vmem S256x1024 .f32 := v742.squeeze S256x1024 squeezes_S1x256x1024_S256x1024
  Prog.lift (.enqueueDma v743 (.here v741) (.dma v739.sem) ((View.wordExact_bits rfl).reshape _ _) ((View.wordExact_bits rfl).reshape _ _) ⟨Or.inl rfl, trivial⟩)
  let v744 : DmaSems sig S1 := arg19.slice (Rect.unit (s := S2) ![0] S1.size inb_S2_S1_0)
  let v745 : DmaSems sig S_ := v744.squeeze S_ squeezes_S1_S_
  let v746 : Memref sig .tc .hbm S1x256x1024 .f32 := arg8.slice (Rect.unit (s := S2x256x1024) ![0, 0, 0] S1x256x1024.size inb_S2x256x1024_S1x256x1024_0_0_0) (fun _ => rfl)
  let v747 : Memref sig .tc .hbm S256x1024 .f32 := v746.squeeze S256x1024 squeezes_S1x256x1024_S256x1024
  let v748 : Memref sig .tc .vmem S1x256x1024 .f32 := arg16.slice (Rect.unit (s := S2x256x1024) ![0, 0, 0] S1x256x1024.size inb_S2x256x1024_S1x256x1024_0_0_0) (fun _ => rfl)
  let v749 : Memref sig .tc .vmem S256x1024 .f32 := v748.squeeze S256x1024 squeezes_S1x256x1024_S256x1024
  Prog.lift (.waitDma2 v745.sem v749 v747 ((View.wordExact_bits rfl).reshape _ _) ((View.wordExact_bits rfl).reshape _ _))
  let v750 : DmaSems sig S1 := arg19.slice (Rect.unit (s := S2) ![1] S1.size inb_S2_S1_1)
  let v751 : DmaSems sig S_ := v750.squeeze S_ squeezes_S1_S_
  let v752 : Memref sig .tc .hbm S1x256x1024 .f32 := arg8.slice (Rect.unit (s := S2x256x1024) ![1, 0, 0] S1x256x1024.size inb_S2x256x1024_S1x256x1024_1_0_0) (fun _ => rfl)
  let v753 : Memref sig .tc .hbm S256x1024 .f32 := v752.squeeze S256x1024 squeezes_S1x256x1024_S256x1024
  let v754 : Memref sig .tc .vmem S1x256x1024 .f32 := arg16.slice (Rect.unit (s := S2x256x1024) ![1, 0, 0] S1x256x1024.size inb_S2x256x1024_S1x256x1024_1_0_0) (fun _ => rfl)
  let v755 : Memref sig .tc .vmem S256x1024 .f32 := v754.squeeze S256x1024 squeezes_S1x256x1024_S256x1024
  Prog.lift (.waitDma2 v751.sem v755 v753 ((View.wordExact_bits rfl).reshape _ _) ((View.wordExact_bits rfl).reshape _ _))
  pure ⟨⟩

theorem part21_split (arg0 : Memref sig .tc .vmem S2x256x1024 .f32) (harg0 : arg0.IsWhole) (arg1 : Memref sig .tc .vmem S1024x64 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S1024x1024 .f32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x1024 .f32) (harg7 : arg7.IsWhole) (arg8 : Memref sig .tc .hbm S2x256x1024 .f32) (harg8 : arg8.IsWhole) (arg9 : Memref sig .tc .vmem S2x256x64 .bf16) (harg9 : arg9.IsWhole) (arg10 : Memref sig .tc .vmem S2x256x64 .bf16) (harg10 : arg10.IsWhole) (arg11 : Memref sig .tc .vmem S64x1024 .bf16) (harg11 : arg11.IsWhole) (arg12 : Memref sig .tc .vmem S64x1024 .bf16) (harg12 : arg12.IsWhole) (arg13 : Memref sig .tc .vmem S64x1024 .bf16) (harg13 : arg13.IsWhole) (arg14 : Memref sig .tc .vmem S64x1024 .bf16) (harg14 : arg14.IsWhole) (arg15 : Memref sig .tc .vmem S256x1024 .f32) (harg15 : arg15.IsWhole) (arg16 : Memref sig .tc .vmem S2x256x1024 .f32) (harg16 : arg16.IsWhole) (arg17 : DmaSems sig S3) (arg18 : DmaSems sig S3) (arg19 : DmaSems sig S2) :
    k0_part21_skel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 = (do
  let ⟨d0, v2, v8, v9, v29⟩ : Σ' (d0 : Dev nD) (v2 : BitVec 32) (v8 : BitVec 32) (v9 : BitVec 32), BitVec 32 ← k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19
  let v62 : FVec F S256x64 .f32 ← k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 d0 v2 v8 v9 v29
  let ⟨v81, v84, v87, v91⟩ : Σ' (v81 : FVec F S256x1024 .f32) (v84 : FVec F S256x512 .f32) (v87 : FVec F S256x32 .f32), FVec F S256x1024 .f32 ← k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 d0 v2 v8 v9 v62
  let ⟨v95, v100, v103, v106, v110, v114, c4_i32_103⟩ : Σ' (v95 : FVec F S256x1024 .f32) (v100 : FVec F S256x1024 .f32) (v103 : FVec F S256x512 .f32) (v106 : FVec F S256x32 .f32) (v110 : FVec F S256x1024 .f32) (v114 : FVec F S256x1024 .f32), BitVec 32 ← k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19
  let ⟨v145, v147, cst_127⟩ : Σ' (v145 : FVec F S256x1 .f32) (v147 : FVec F S256x1024 .f32), F .f32 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v2 v8 v9 v81 c4_i32_103
  tail21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v84 v87 v91 v95 v100 v103 v106 v110 v114 v145 v147 cst_127) := rfl

end Cert.KernelIdeal.Hand

end
-- ==== Proof.TailRun.lean ====
import proofs.«900965_g7700000000000966_dist_mla_v7x_xyz2x2x2_y_b2_s256_d1024_dc64_f32_1_alg».proof.Proof.Proto
import proofs.«900965_g7700000000000966_dist_mla_v7x_xyz2x2x2_y_b2_s256_d1024_dc64_f32_1_alg».proof.Proof.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {U : Type} [URA U] [CountersIn U]

local notation "𝕄" => MT nD τ sig Unit (Elt F) ℕ U ℕ

def headV0 (v84 : FVec F S256x512 .f32) (v87 : FVec F S256x32 .f32) (v91 v95 : FVec F S256x1024 .f32)
    (v145 : FVec F S256x1 .f32) (v147 : FVec F S256x1024 .f32) (cst_127 : F .f32)
    (cr0 : Vec F S1x256x64 .bf16) (wukr wuvr : Vec F S64x1024 .bf16) : Fin 16 → FVec F S256x64 .f32
  | 0 => k0_pay23 v84 v87 v91 v95 v145 v147 cst_127 cr0 wukr cr0 wuvr
  | 1 => k0_pay26 (k0_pay22 v95 cr0 wuvr) (k0_pay24 v84 v87 v91 v147 cst_127 cr0 wukr) (k0_pay25 v84 v87 v91 v145 v147 cst_127 cr0 wukr)
  | 2 => k0_pay27 v87 v145 v147 (k0_pay20 v84 cst_127) (k0_pay21 v91 cr0 wukr) (k0_pay22 v95 cr0 wuvr)
  | 3 => k0_pay29 (k0_pay28 v87 v145 v147 (k0_pay20 v84 cst_127) (k0_pay21 v91 cr0 wukr) (k0_pay22 v95 cr0 wuvr))
  | 4 => k0_pay30 v87 v145 v147 (k0_pay20 v84 cst_127) (k0_pay21 v91 cr0 wukr) (k0_pay22 v95 cr0 wuvr)
  | 5 => k0_pay31 v87 v145 v147 (k0_pay20 v84 cst_127) (k0_pay21 v91 cr0 wukr) (k0_pay22 v95 cr0 wuvr)
  | 6 => k0_pay34 v87 v145 (k0_pay22 v95 cr0 wuvr) (k0_pay32 (k0_pay20 v84 cst_127)) (k0_pay33 v147 (k0_pay21 v91 cr0 wukr)) (constant S256x256 .f32 0x00000000#32)
  | 7 => k0_pay35 v87 v145 v147 (k0_pay20 v84 cst_127) (k0_pay21 v91 cr0 wukr) (k0_pay22 v95 cr0 wuvr)
  | 8 => k0_pay40 (k0_pay37 v87 v145 v147 (k0_pay20 v84 cst_127) (k0_pay21 v91 cr0 wukr)) (k0_pay38 v87 v147 (k0_pay20 v84 cst_127) (k0_pay21 v91 cr0 wukr) (k0_pay22 v95 cr0 wuvr)) (k0_pay39 (F := F))
  | 9 => k0_pay41 v87 v145 v147 (k0_pay20 v84 cst_127) (k0_pay21 v91 cr0 wukr) (k0_pay22 v95 cr0 wuvr)
  | 10 => k0_pay42 v87 v145 v147 (k0_pay20 v84 cst_127) (k0_pay21 v91 cr0 wukr) (k0_pay22 v95 cr0 wuvr)
  | 11 => k0_pay44 v87 v145 (k0_pay20 v84 cst_127) (k0_pay21 v91 cr0 wukr) (k0_pay22 v95 cr0 wuvr) (k0_pay43 v147)
  | 12 => k0_pay45 v87 v145 v147 (k0_pay20 v84 cst_127) (k0_pay21 v91 cr0 wukr) (k0_pay22 v95 cr0 wuvr)
  | 13 => k0_pay48 (k0_pay22 v95 cr0 wuvr) (k0_pay46 v87 v147 (k0_pay20 v84 cst_127) (k0_pay21 v91 cr0 wukr)) (k0_pay47 v87 v145 v147 (k0_pay20 v84 cst_127) (k0_pay21 v91 cr0 wukr))
  | 14 => k0_pay49 v87 v145 v147 (k0_pay20 v84 cst_127) (k0_pay21 v91 cr0 wukr) (k0_pay22 v95 cr0 wuvr)
  | 15 => k0_pay51 (k0_pay50 v87 v145 v147 (k0_pay20 v84 cst_127) (k0_pay21 v91 cr0 wukr) (k0_pay22 v95 cr0 wuvr))
  | ⟨_ + 16, h⟩ => absurd h (Nat.not_lt.2 (Nat.le_add_left _ _))

def headV1 (v100 : FVec F S256x1024 .f32) (v103 : FVec F S256x512 .f32) (v106 : FVec F S256x32 .f32)
    (v110 v114 : FVec F S256x1024 .f32) (v145 : FVec F S256x1 .f32)
    (cr1 : Vec F S1x256x64 .bf16) (wukr wuvr : Vec F S64x1024 .bf16) : Fin 16 → FVec F S256x64 .f32
  | 0 => k0_pay58 v106 v114 v145 (k0_pay53 v100) (k0_pay54 v103) (k0_pay55 v110 cr1 wukr) (k0_pay56 cr1) wuvr (constant S256x1024 .f32 0x00000000#32)
  | 1 => k0_pay59 v106 v114 v145 (k0_pay53 v100) (k0_pay54 v103) (k0_pay55 v110 cr1 wukr) (k0_pay56 cr1) wuvr (constant S256x1024 .f32 0x00000000#32)
  | 2 => k0_pay61 v145 (k0_pay57 v114 (k0_pay56 cr1) wuvr (constant S256x1024 .f32 0x00000000#32)) (k0_pay60 v106 (k0_pay53 v100) (k0_pay54 v103) (k0_pay55 v110 cr1 wukr))
  | 3 => k0_pay62 v106 v145 (k0_pay53 v100) (k0_pay54 v103) (k0_pay55 v110 cr1 wukr) (k0_pay57 v114 (k0_pay56 cr1) wuvr (constant S256x1024 .f32 0x00000000#32))
  | 4 => k0_pay66 (k0_pay64 v106 (k0_pay53 v100) (k0_pay54 v103) (k0_pay55 v110 cr1 wukr) (k0_pay57 v114 (k0_pay56 cr1) wuvr (constant S256x1024 .f32 0x00000000#32))) (k0_pay65 v106 v145 (k0_pay53 v100) (k0_pay54 v103) (k0_pay55 v110 cr1 wukr))
  | 5 => k0_pay67 v106 v145 (k0_pay53 v100) (k0_pay54 v103) (k0_pay55 v110 cr1 wukr) (k0_pay57 v114 (k0_pay56 cr1) wuvr (constant S256x1024 .f32 0x00000000#32))
  | 6 => k0_pay68 v106 v145 (k0_pay53 v100) (k0_pay54 v103) (k0_pay55 v110 cr1 wukr) (k0_pay57 v114 (k0_pay56 cr1) wuvr (constant S256x1024 .f32 0x00000000#32))
  | 7 => k0_pay72 v106 v145 (k0_pay57 v114 (k0_pay56 cr1) wuvr (constant S256x1024 .f32 0x00000000#32)) (k0_pay69 (k0_pay53 v100)) (k0_pay70 (k0_pay55 v110 cr1 wukr)) (k0_pay71 (k0_pay54 v103))
  | 8 => k0_pay73 v106 v145 (k0_pay53 v100) (k0_pay54 v103) (k0_pay55 v110 cr1 wukr) (k0_pay57 v114 (k0_pay56 cr1) wuvr (constant S256x1024 .f32 0x00000000#32))
  | 9 => k0_pay77 (k0_pay74 v106 (k0_pay53 v100) (k0_pay54 v103) (k0_pay55 v110 cr1 wukr)) (k0_pay75 v106 v145 (k0_pay53 v100) (k0_pay54 v103) (k0_pay55 v110 cr1 wukr)) (k0_pay76 (k0_pay57 v114 (k0_pay56 cr1) wuvr (constant S256x1024 .f32 0x00000000#32))) (constant S256x64 .f32 0x00000000#32)
  | 10 => k0_pay78 v106 v145 (k0_pay53 v100) (k0_pay54 v103) (k0_pay55 v110 cr1 wukr) (k0_pay57 v114 (k0_pay56 cr1) wuvr (constant S256x1024 .f32 0x00000000#32))
  | 11 => k0_pay80 (k0_pay79 v106 v145 (k0_pay53 v100) (k0_pay54 v103) (k0_pay55 v110 cr1 wukr) (k0_pay57 v114 (k0_pay56 cr1) wuvr (constant S256x1024 .f32 0x00000000#32)))
  | 12 => k0_pay81 v106 v145 (k0_pay53 v100) (k0_pay54 v103) (k0_pay55 v110 cr1 wukr) (k0_pay57 v114 (k0_pay56 cr1) wuvr (constant S256x1024 .f32 0x00000000#32))
  | 13 => k0_pay82 v106 v145 (k0_pay53 v100) (k0_pay54 v103) (k0_pay55 v110 cr1 wukr) (k0_pay57 v114 (k0_pay56 cr1) wuvr (constant S256x1024 .f32 0x00000000#32))
  | 14 => k0_pay84 v145 (k0_pay57 v114 (k0_pay56 cr1) wuvr (constant S256x1024 .f32 0x00000000#32)) (k0_pay83 v106 (k0_pay53 v100) (k0_pay54 v103) (k0_pay55 v110 cr1 wukr))
  | 15 => k0_pay85 v106 v145 (k0_pay53 v100) (k0_pay54 v103) (k0_pay55 v110 cr1 wukr) (k0_pay57 v114 (k0_pay56 cr1) wuvr (constant S256x1024 .f32 0x00000000#32))
  | ⟨_ + 16, h⟩ => absurd h (Nat.not_lt.2 (Nat.le_add_left _ _))

theorem headV0_eq (x0 : Vec F S1x256x1024 .f32) (wd : Vec F S1024x64 .f32) (wuk wuv : Vec F S64x1024 .f32)
    (wq : Vec F S1024x1024 .f32) (wqr : Vec F S1024x512 .f32) (wkr : Vec F S1024x32 .f32)
    (cr0 : Vec F S1x256x64 .bf16) (wukr wuvr : Vec F S64x1024 .bf16) :
    headV0 (k0_pay8 x0 wqr) (kr0 x0 wkr) (km0 x0 wd wuk) (vm0 x0 wd wuv) ones (q0 x0 wq) sc cr0 wukr wuvr
      = headPay0 x0 wd wuk wuv wq wqr wkr cr0 wukr wuvr := by
  funext h; fin_cases h <;> rfl

theorem headV1_eq (x1 : Vec F S1x256x1024 .f32) (wd : Vec F S1024x64 .f32) (wuk wuv : Vec F S64x1024 .f32)
    (wq : Vec F S1024x1024 .f32) (wqr : Vec F S1024x512 .f32) (wkr : Vec F S1024x32 .f32)
    (cr1 : Vec F S1x256x64 .bf16) (wukr wuvr : Vec F S64x1024 .bf16) :
    headV1 (k0_pay13 x1 wq) (k0_pay14 x1 wqr) (kr1 x1 wkr) (km1 x1 wd wuk) (vm1 x1 wd wuv) ones cr1 wukr wuvr
      = headPay1 x1 wd wuk wuv wq wqr wkr cr1 wukr wuvr := by
  funext h; fin_cases h <;> rfl

abbrev rWhole64x1024 : Rect S64x1024 := Rect.unit (s := S64x1024) ![0, 0] S64x1024.size inb_S64x1024_S64x1024_0_0
abbrev rWhole1024x1024 : Rect S1024x1024 := Rect.unit (s := S1024x1024) ![0, 0] S1024x1024.size inb_S1024x1024_S1024x1024_0_0

def tailOut (v84 : FVec F S256x512 .f32) (v87 : FVec F S256x32 .f32) (v91 : FVec F S256x1024 .f32) (v95 : FVec F S256x1024 .f32) (v100 : FVec F S256x1024 .f32) (v103 : FVec F S256x512 .f32) (v106 : FVec F S256x32 .f32) (v110 : FVec F S256x1024 .f32) (v114 : FVec F S256x1024 .f32) (v145 : FVec F S256x1 .f32) (v147 : FVec F S256x1024 .f32) (cst_127 : F .f32)
    (R0 : (cc0_scratch1 : Ref sig .tc).ty.Contents (Elt F)) (R1 : (cc0_scratch3 : Ref sig .tc).ty.Contents (Elt F)) (R2 : (cc0_scratch5 : Ref sig .tc).ty.Contents (Elt F)) (a7 : (cc0_stg7_0 : Ref sig .tc).ty.Contents (Elt F)) :
    (main_v1 : Ref sig .tc).ty.Contents (Elt F) := fun i =>
  if (i 0).val = 0 then
    k0_pay52 (sideBySide (headV0 v84 v87 v91 v95 v145 v147 cst_127
        (View.readAt (Elt F) rM0.view rC0.toLoadRect R0)
        (View.readAt (Elt F) rM1.view rWhole64x1024.toLoadRect R1)
        (View.readAt (Elt F) rM2.view rWhole64x1024.toLoadRect R2)))
      (View.readAt (Elt F) aM7.view rWhole1024x1024.toLoadRect a7)
      (ValueIdx.ix3 (0 : Fin 1) (i 1) (i 2))
  else
    k0_pay86 (sideBySide (headV1 v100 v103 v106 v110 v114 v145
        (View.readAt (Elt F) rM0.view rC1.toLoadRect R0)
        (View.readAt (Elt F) rM1.view rWhole64x1024.toLoadRect R1)
        (View.readAt (Elt F) rM2.view rWhole64x1024.toLoadRect R2)))
      (View.readAt (Elt F) aM7.view rWhole1024x1024.toLoadRect a7)
      (ValueIdx.ix3 (0 : Fin 1) (i 1) (i 2))

section Cover

variable {sig' : RefSig} {κ' : Kind} {sp' : Space}

theorem sideBySide_emb (P : Fin 16 → FVec F S256x64 .f32) (h : Fin 16) (o : ℕ) (ho : o = 64 * h.val)
    (inb : ∀ a, (![0, o] : Fin 2 → ℕ) a + S256x64.size a ≤ S256x1024.size a) (x : S256x64.Idx) :
    sideBySide P ((Rect.unit (s := S256x1024) ![0, o] S256x64.size inb).emb x) = P h x := by
  subst ho
  have e0 : (((Rect.unit (s := S256x1024) ![0, 64 * h.val] S256x64.size inb).emb x) 0).val = (x 0).val := by
    rw [Rect.emb_apply]; show 0 + 1 * (x 0).val = _; omega
  have e1 : (((Rect.unit (s := S256x1024) ![0, 64 * h.val] S256x64.size inb).emb x) 1).val = 64 * h.val + (x 1).val := by
    rw [Rect.emb_apply]; show 64 * h.val + 1 * (x 1).val = _; omega
  have hx1 : (x 1).val < 64 := (x 1).isLt
  unfold sideBySide
  refine congrArg₂ P (Fin.ext ?_) (funext fun a => Fin.ext ?_)
  · show (((Rect.unit (s := S256x1024) ![0, 64 * h.val] S256x64.size inb).emb x) 1).val / 64 = h.val
    rw [e1]; omega
  · match a with
    | ⟨0, _⟩ => exact e0
    | ⟨1, _⟩ =>
      show (((Rect.unit (s := S256x1024) ![0, 64 * h.val] S256x64.size inb).emb x) 1).val % 64 = (x 1).val
      rw [e1]; omega

def cols16 (P : Fin 16 → FVec F S256x64 .f32) : List (View.Piece (Elt F) S256x1024 .f32) :=
  [⟨Rect.unit (s := S256x1024) ![0, 960] S256x64.size inb_S256x1024_S256x64_0_960, P 15⟩,
   ⟨Rect.unit (s := S256x1024) ![0, 896] S256x64.size inb_S256x1024_S256x64_0_896, P 14⟩,
   ⟨Rect.unit (s := S256x1024) ![0, 832] S256x64.size inb_S256x1024_S256x64_0_832, P 13⟩,
   ⟨Rect.unit (s := S256x1024) ![0, 768] S256x64.size inb_S256x1024_S256x64_0_768, P 12⟩,
   ⟨Rect.unit (s := S256x1024) ![0, 704] S256x64.size inb_S256x1024_S256x64_0_704, P 11⟩,
   ⟨Rect.unit (s := S256x1024) ![0, 640] S256x64.size inb_S256x1024_S256x64_0_640, P 10⟩,
   ⟨Rect.unit (s := S256x1024) ![0, 576] S256x64.size inb_S256x1024_S256x64_0_576, P 9⟩,
   ⟨Rect.unit (s := S256x1024) ![0, 512] S256x64.size inb_S256x1024_S256x64_0_512, P 8⟩,
   ⟨Rect.unit (s := S256x1024) ![0, 448] S256x64.size inb_S256x1024_S256x64_0_448, P 7⟩,
   ⟨Rect.unit (s := S256x1024) ![0, 384] S256x64.size inb_S256x1024_S256x64_0_384, P 6⟩,
   ⟨Rect.unit (s := S256x1024) ![0, 320] S256x64.size inb_S256x1024_S256x64_0_320, P 5⟩,
   ⟨Rect.unit (s := S256x1024) ![0, 256] S256x64.size inb_S256x1024_S256x64_0_256, P 4⟩,
   ⟨Rect.unit (s := S256x1024) ![0, 192] S256x64.size inb_S256x1024_S256x64_0_192, P 3⟩,
   ⟨Rect.unit (s := S256x1024) ![0, 128] S256x64.size inb_S256x1024_S256x64_0_128, P 2⟩,
   ⟨Rect.unit (s := S256x1024) ![0, 64] S256x64.size inb_S256x1024_S256x64_0_64, P 1⟩,
   ⟨Rect.unit (s := S256x1024) ![0, 0] S256x64.size inb_S256x1024_S256x64_0_0, P 0⟩]

theorem cols16_pieces (P : Fin 16 → FVec F S256x64 .f32) :
    ∀ p ∈ cols16 P, ∀ x : p.1.shape.Idx, p.2 x = sideBySide P (p.1.emb x) := by
  intro p hp
  simp only [cols16, List.mem_cons, List.not_mem_nil, or_false] at hp
  rcases hp with rfl | rfl | rfl | rfl | rfl | rfl | rfl | rfl | rfl | rfl | rfl | rfl | rfl | rfl | rfl | rfl
  all_goals exact fun x => (sideBySide_emb P _ _ (by rfl) (by decide) x).symm

theorem read_cols16 (v : View sig' κ' sp' S256x1024 .f32) (f : v.ty.Contents (Elt F)) (P : Fin 16 → FVec F S256x64 .f32)
    (L : List (View.Piece (Elt F) S256x1024 .f32)) (y : S256x1024.Idx) :
    v.read (Elt F) (v.writes (Elt F) f (cols16 P ++ L)) y = sideBySide P y := by
  rw [View.writes_append]
  exact View.read_writes_apply_of_pieces v _ (sideBySide P) (cols16 P) (cols16_pieces P) y
    (View.cover_of_tiled (cols16 P) ![256, 64] rfl y)

theorem readAt_whole_cols16 {sig' : RefSig} {κ' : Kind} {sp' : Space} (v : View sig' κ' sp' S256x1024 .f32)
    (f : v.ty.Contents (Elt F)) (P : Fin 16 → FVec F S256x64 .f32) (L : List (View.Piece (Elt F) S256x1024 .f32))
    (inb : ∀ a, (![0, 0] : Fin 2 → ℕ) a + S256x1024.size a ≤ S256x1024.size a) :
    v.readAt (Elt F) (Rect.unit (s := S256x1024) ![0, 0] S256x1024.size inb).toLoadRect (v.writes (Elt F) f (cols16 P ++ L))
      = sideBySide P := by
  funext y
  rw [View.readAt_apply, read_cols16]
  refine congrArg (sideBySide P) (funext fun a => Fin.ext ?_)
  show ((Rect.unit (s := S256x1024) ![0, 0] S256x1024.size inb).emb y a).val = (y a).val
  rw [Rect.emb_apply]
  match a with
  | ⟨0, _⟩ => show 0 + 1 * (y 0).val = (y 0).val; omega
  | ⟨1, _⟩ => show 0 + 1 * (y 1).val = (y 1).val; omega

end Cover

section Rows

variable {sig' : RefSig} {κ' : Kind} {sp' : Space} {e' : EltTy} {Val : EltTy → Type}

theorem sq_emb (v : View sig' κ' sp' S2x256x1024 e') (off : Fin 3 → ℕ)
    (inb : ∀ a, off a + S1x256x1024.size a ≤ S2x256x1024.size a)
    (hn : S256x1024.numel = (Rect.unit (s := S2x256x1024) off S1x256x1024.size inb).shape.numel)
    (s : Fin 256) (n : Fin 1024) :
    ((v.slice (Rect.unit (s := S2x256x1024) off S1x256x1024.size inb)).reshape S256x1024 hn).emb (ValueIdx.ix2 s n)
      = v.emb ((Rect.unit (s := S2x256x1024) off S1x256x1024.size inb).emb (ValueIdx.ix3 (0 : Fin 1) s n)) := by
  have e : Shape.reshapeEquiv hn (ValueIdx.ix2 s n) = (ValueIdx.ix3 (0 : Fin 1) s n) :=
    Shape.reshapeEquiv_eq_of_rowMajor hn (by
      rw [Shape.rowMajor_val_three, Shape.rowMajor_val_two]
      show (0 * 256 + s.val) * 1024 + n.val = s.val * 1024 + n.val
      omega)
  show v.emb ((Rect.unit (s := S2x256x1024) off S1x256x1024.size inb).emb (Shape.reshapeEquiv hn (ValueIdx.ix2 s n))) = _
  rw [e]

theorem read_sq_writes_cons (v : View sig' κ' sp' S2x256x1024 e') (f : v.ty.Contents Val) (off : Fin 3 → ℕ)
    (inb : ∀ a, off a + S1x256x1024.size a ≤ S2x256x1024.size a)
    (hn : S256x1024.numel = (Rect.unit (s := S2x256x1024) off S1x256x1024.size inb).shape.numel)
    (P : (Rect.unit (s := S2x256x1024) off S1x256x1024.size inb).shape.Idx → Val e') (L : List (View.Piece Val S2x256x1024 e'))
    (s : Fin 256) (n : Fin 1024) :
    ((v.slice (Rect.unit (s := S2x256x1024) off S1x256x1024.size inb)).reshape S256x1024 hn).read Val
        (v.writes Val f (⟨Rect.unit (s := S2x256x1024) off S1x256x1024.size inb, P⟩ :: L)) (ValueIdx.ix2 s n)
      = P (ValueIdx.ix3 (0 : Fin 1) s n) := by
  have h := View.read_writes_cons_emb v f (Rect.unit (s := S2x256x1024) off S1x256x1024.size inb) P L (ValueIdx.ix3 (0 : Fin 1) s n)
  rw [View.read_apply] at h ⊢
  rw [sq_emb]
  exact h

end Rows

section Out

variable {sig' : RefSig} {κ' : Kind} {sp' : Space} {e' : EltTy} {Val : EltTy → Type}

theorem rX0_emb (s : Fin 256) (n : Fin 1024) :
    (rX0 : Rect S2x256x1024).emb (ValueIdx.ix3 (0 : Fin 1) s n) = (ValueIdx.ix3 (0 : Fin 2) s n : S2x256x1024.Idx) :=
  funext fun a => Fin.ext (by
    rw [Rect.emb_apply]
    match a with
    | ⟨0, _⟩ => rfl
    | ⟨1, _⟩ => show 0 + 1 * s.val = s.val; omega
    | ⟨2, _⟩ => show 0 + 1 * n.val = n.val; omega)

theorem rX1_emb (s : Fin 256) (n : Fin 1024) :
    (rX1 : Rect S2x256x1024).emb (ValueIdx.ix3 (0 : Fin 1) s n) = (ValueIdx.ix3 (1 : Fin 2) s n : S2x256x1024.Idx) :=
  funext fun a => Fin.ext (by
    rw [Rect.emb_apply]
    match a with
    | ⟨0, _⟩ => rfl
    | ⟨1, _⟩ => show 0 + 1 * s.val = s.val; omega
    | ⟨2, _⟩ => show 0 + 1 * n.val = n.val; omega)

theorem read_two_rows (v : View sig' κ' sp' S2x256x1024 e') (hv : v.ty.Contents Val) (d0 d1 : S256x1024.Idx → Val e')
    (hn0 : S256x1024.numel = (rX0 : Rect S2x256x1024).shape.numel) (hn1 : S256x1024.numel = (rX1 : Rect S2x256x1024).shape.numel)
    (b : Fin 2) (s : Fin 256) (n : Fin 1024) :
    v.read Val (View.write Val ((v.slice rX1).reshape S256x1024 hn1)
        (View.write Val ((v.slice rX0).reshape S256x1024 hn0) hv d0 Finset.univ) d1 Finset.univ) (ValueIdx.ix3 b s n)
      = if b.val = 0 then d0 (ValueIdx.ix2 s n) else d1 (ValueIdx.ix2 s n) := by
  have e0 : ((v.slice rX0).reshape S256x1024 hn0).emb (ValueIdx.ix2 s n) = v.emb (ValueIdx.ix3 (0 : Fin 2) s n) :=
    (sq_emb v _ _ hn0 s n).trans (congrArg v.emb (rX0_emb s n))
  have e1 : ∀ (s' : Fin 256) (n' : Fin 1024),
      ((v.slice rX1).reshape S256x1024 hn1).emb (ValueIdx.ix2 s' n') = v.emb (ValueIdx.ix3 (1 : Fin 2) s' n') :=
    fun s' n' => (sq_emb v _ _ hn1 s' n').trans (congrArg v.emb (rX1_emb s' n'))
  have hb : b = 0 ∨ b = 1 := by omega
  rcases hb with rfl | rfl
  · rw [if_pos (show ((0 : Fin 2)).val = 0 from rfl), View.read_apply, ← e0]
    have hn : ((v.slice rX0).reshape S256x1024 hn0).emb (ValueIdx.ix2 s n) ∉ ((v.slice rX1).reshape S256x1024 hn1).setOn Finset.univ := by
      intro hm
      obtain ⟨x, -, hx⟩ := Finset.mem_map.mp hm
      have hx' : v.emb (ValueIdx.ix3 (1 : Fin 2) (x 0) (x 1)) = v.emb (ValueIdx.ix3 (0 : Fin 2) s n) :=
        (e1 (x 0) (x 1)).symm.trans
          ((congrArg ((v.slice rX1).reshape S256x1024 hn1).emb (ValueIdx.eq_ix2 x).symm).trans (hx.trans e0))
      have := congrArg (fun j : S2x256x1024.Idx => (j 0).val) (v.emb.injective hx')
      exact Nat.one_ne_zero this
    rw [View.write_of_not_mem _ _ _ hn, View.write_emb_of_mem _ _ (Finset.mem_univ _), cast_cast, cast_eq]
  · rw [if_neg (show ¬ ((1 : Fin 2)).val = 0 by decide), View.read_apply, ← e1, View.write_emb_of_mem _ _ (Finset.mem_univ _), cast_cast, cast_eq]

end Out

def tailPost (c : Dev nD)
    (a0 : (cc0_stg0_0 : Ref sig .tc).ty.Contents (Elt F))
    (a1 : (cc0_stg1_0 : Ref sig .tc).ty.Contents (Elt F))
    (a2 : (cc0_stg2_0 : Ref sig .tc).ty.Contents (Elt F))
    (a3 : (cc0_stg3_0 : Ref sig .tc).ty.Contents (Elt F))
    (a4 : (cc0_stg4_0 : Ref sig .tc).ty.Contents (Elt F))
    (a5 : (cc0_stg5_0 : Ref sig .tc).ty.Contents (Elt F))
    (a6 : (cc0_stg6_0 : Ref sig .tc).ty.Contents (Elt F))
    (a7 : (cc0_stg7_0 : Ref sig .tc).ty.Contents (Elt F))
    (S0 : (cc0_scratch0 : Ref sig .tc).ty.Contents (Elt F))
    (S1 : (cc0_scratch2 : Ref sig .tc).ty.Contents (Elt F))
    (S2 : (cc0_scratch4 : Ref sig .tc).ty.Contents (Elt F))
    (R0 : (cc0_scratch1 : Ref sig .tc).ty.Contents (Elt F))
    (R1 : (cc0_scratch3 : Ref sig .tc).ty.Contents (Elt F))
    (R2 : (cc0_scratch5 : Ref sig .tc).ty.Contents (Elt F))
    (v84 : FVec F S256x512 .f32) (v87 : FVec F S256x32 .f32) (v91 : FVec F S256x1024 .f32) (v95 : FVec F S256x1024 .f32) (v100 : FVec F S256x1024 .f32) (v103 : FVec F S256x512 .f32) (v106 : FVec F S256x32 .f32) (v110 : FVec F S256x1024 .f32) (v114 : FVec F S256x1024 .f32) (v145 : FVec F S256x1 .f32) (v147 : FVec F S256x1024 .f32) (cst_127 : F .f32) : sProp 𝕄 :=
  iprop(((aM0.view.loc (c : Thread nD τ)) ↦[aM0.view.set]{fullShare} a0)
        ∗ ((aM1.view.loc (c : Thread nD τ)) ↦[aM1.view.set]{fullShare} a1)
        ∗ ((aM2.view.loc (c : Thread nD τ)) ↦[aM2.view.set]{fullShare} a2)
        ∗ ((aM3.view.loc (c : Thread nD τ)) ↦[aM3.view.set]{fullShare} a3)
        ∗ ((aM4.view.loc (c : Thread nD τ)) ↦[aM4.view.set]{fullShare} a4)
        ∗ ((aM5.view.loc (c : Thread nD τ)) ↦[aM5.view.set]{fullShare} a5)
        ∗ ((aM6.view.loc (c : Thread nD τ)) ↦[aM6.view.set]{fullShare} a6)
        ∗ ((aM7.view.loc (c : Thread nD τ)) ↦[aM7.view.set]{fullShare} a7)
        ∗ ((sM0.view.loc (c : Thread nD τ)) ↦[sM0.view.set]{fullShare} S0)
        ∗ ((rM0.view.loc (c : Thread nD τ)) ↦[rM0.view.set]{fullShare} R0)
        ∗ ((sM1.view.loc (c : Thread nD τ)) ↦[sM1.view.set]{fullShare} S1)
        ∗ ((rM1.view.loc (c : Thread nD τ)) ↦[rM1.view.set]{fullShare} R1)
        ∗ ((sM2.view.loc (c : Thread nD τ)) ↦[sM2.view.set]{fullShare} S2)
        ∗ ((rM2.view.loc (c : Thread nD τ)) ↦[rM2.view.set]{fullShare} R2)
        ∗ (∃ f, ((oM.view.loc (c : Thread nD τ)) ↦[oM.view.set]{fullShare} f))
        ∗ (∃ f, ((vM.view.loc (c : Thread nD τ)) ↦[vM.view.set]{fullShare} f))
        ∗ ((yM.view.loc (c : Thread nD τ)) ↦[yM.view.set]{fullShare} (tailOut v84 v87 v91 v95 v100 v103 v106 v110 v114 v145 v147 cst_127 R0 R1 R2 a7))
        ∗ semVal ((c : Thread nD τ), .dma storeS0.sem) 0 ∗ semVal ((c : Thread nD τ), .dma storeS1.sem) 0
        ∗ (∃ W', owes (c : Thread nD τ) 0 W'))

-- After the exchange: the sixteen heads of each batch row, the output projection, and the two copies into the result array.
set_option maxHeartbeats 4000000 in

theorem tail_run (c : Dev nD) (Kt : PUnit → sProp 𝕄) (W : Waits sig Unit)
    (a0 : (cc0_stg0_0 : Ref sig .tc).ty.Contents (Elt F))
    (a1 : (cc0_stg1_0 : Ref sig .tc).ty.Contents (Elt F))
    (a2 : (cc0_stg2_0 : Ref sig .tc).ty.Contents (Elt F))
    (a3 : (cc0_stg3_0 : Ref sig .tc).ty.Contents (Elt F))
    (a4 : (cc0_stg4_0 : Ref sig .tc).ty.Contents (Elt F))
    (a5 : (cc0_stg5_0 : Ref sig .tc).ty.Contents (Elt F))
    (a6 : (cc0_stg6_0 : Ref sig .tc).ty.Contents (Elt F))
    (a7 : (cc0_stg7_0 : Ref sig .tc).ty.Contents (Elt F))
    (S0 : (cc0_scratch0 : Ref sig .tc).ty.Contents (Elt F))
    (S1 : (cc0_scratch2 : Ref sig .tc).ty.Contents (Elt F))
    (S2 : (cc0_scratch4 : Ref sig .tc).ty.Contents (Elt F))
    (R0 : (cc0_scratch1 : Ref sig .tc).ty.Contents (Elt F))
    (R1 : (cc0_scratch3 : Ref sig .tc).ty.Contents (Elt F))
    (R2 : (cc0_scratch5 : Ref sig .tc).ty.Contents (Elt F))
    (g6 : (cc0_scratch6 : Ref sig .tc).ty.Contents (Elt F))
    (g7 : (cc0_scratch7 : Ref sig .tc).ty.Contents (Elt F))
    (hv : (main_v1 : Ref sig .tc).ty.Contents (Elt F))
    (v84 : FVec F S256x512 .f32) (v87 : FVec F S256x32 .f32) (v91 : FVec F S256x1024 .f32) (v95 : FVec F S256x1024 .f32) (v100 : FVec F S256x1024 .f32) (v103 : FVec F S256x512 .f32) (v106 : FVec F S256x32 .f32) (v110 : FVec F S256x1024 .f32) (v114 : FVec F S256x1024 .f32) (v145 : FVec F S256x1 .f32) (v147 : FVec F S256x1024 .f32) (cst_127 : F .f32) :
    iprop(((aM0.view.loc (c : Thread nD τ)) ↦[aM0.view.set]{fullShare} a0)
        ∗ ((aM1.view.loc (c : Thread nD τ)) ↦[aM1.view.set]{fullShare} a1)
        ∗ ((aM2.view.loc (c : Thread nD τ)) ↦[aM2.view.set]{fullShare} a2)
        ∗ ((aM3.view.loc (c : Thread nD τ)) ↦[aM3.view.set]{fullShare} a3)
        ∗ ((aM4.view.loc (c : Thread nD τ)) ↦[aM4.view.set]{fullShare} a4)
        ∗ ((aM5.view.loc (c : Thread nD τ)) ↦[aM5.view.set]{fullShare} a5)
        ∗ ((aM6.view.loc (c : Thread nD τ)) ↦[aM6.view.set]{fullShare} a6)
        ∗ ((aM7.view.loc (c : Thread nD τ)) ↦[aM7.view.set]{fullShare} a7)
        ∗ ((sM0.view.loc (c : Thread nD τ)) ↦[sM0.view.set]{fullShare} S0)
        ∗ ((rM0.view.loc (c : Thread nD τ)) ↦[rM0.view.set]{fullShare} R0)
        ∗ ((sM1.view.loc (c : Thread nD τ)) ↦[sM1.view.set]{fullShare} S1)
        ∗ ((rM1.view.loc (c : Thread nD τ)) ↦[rM1.view.set]{fullShare} R1)
        ∗ ((sM2.view.loc (c : Thread nD τ)) ↦[sM2.view.set]{fullShare} S2)
        ∗ ((rM2.view.loc (c : Thread nD τ)) ↦[rM2.view.set]{fullShare} R2)
        ∗ ((oM.view.loc (c : Thread nD τ)) ↦[oM.view.set]{fullShare} g6)
        ∗ ((vM.view.loc (c : Thread nD τ)) ↦[vM.view.set]{fullShare} g7)
        ∗ ((yM.view.loc (c : Thread nD τ)) ↦[yM.view.set]{fullShare} hv)
        ∗ semVal ((c : Thread nD τ), .dma storeS0.sem) 0 ∗ semVal ((c : Thread nD τ), .dma storeS1.sem) 0
        ∗ owes (c : Thread nD τ) 0 W
        ∗ (tailPost (U := U) c a0 a1 a2 a3 a4 a5 a6 a7 S0 S1 S2 R0 R1 R2 v84 v87 v91 v95 v100 v103 v106 v110 v114 v145 v147 cst_127 -∗ Kt ⟨⟩))
      ⊢ wp frame (wpE (defs₀ (F := F)) 𝒱₀ c none) Set.univ
          (tail21 aM0 (Memref.isWhole_whole _) aM1 (Memref.isWhole_whole _) aM2 (Memref.isWhole_whole _) aM3 (Memref.isWhole_whole _) aM4 (Memref.isWhole_whole _) aM5 (Memref.isWhole_whole _) aM6 (Memref.isWhole_whole _) aM7 (Memref.isWhole_whole _) yM (Memref.isWhole_whole _) sM0 (Memref.isWhole_whole _) rM0 (Memref.isWhole_whole _) sM1 (Memref.isWhole_whole _) rM1 (Memref.isWhole_whole _) sM2 (Memref.isWhole_whole _) rM2 (Memref.isWhole_whole _) oM (Memref.isWhole_whole _) vM (Memref.isWhole_whole _) cc0_scratch8 cc0_scratch9 cc0_scratch10 v84 v87 v91 v95 v100 v103 v106 v110 v114 v145 v147 cst_127) Kt := by
  unfold tail21
  iintro ⟨H0, H1, H2, H3, H4, H5, H6, H7, G0, G1, G2, G3, G4, G5, G6, G7, HV, HS0, HS1, HO, Hk⟩
  set_option sl_exec.dmaWindow true in
  set_option sl_exec.dmaWindowSet true in
  sl_exec_parts
  sl_step

  have e432 : tail_run.sl.v432 R0 R1 R2 v84 v87 v91 v95 v145 v147 cst_127 = sideBySide (headV0 v84 v87 v91 v95 v145 v147 cst_127 (View.readAt (Elt F) rM0.view rC0.toLoadRect R0) (View.readAt (Elt F) rM1.view rWhole64x1024.toLoadRect R1) (View.readAt (Elt F) rM2.view rWhole64x1024.toLoadRect R2)) :=
    readAt_whole_cols16 oM.view _ (headV0 v84 v87 v91 v95 v145 v147 cst_127 (View.readAt (Elt F) rM0.view rC0.toLoadRect R0) (View.readAt (Elt F) rM1.view rWhole64x1024.toLoadRect R1) (View.readAt (Elt F) rM2.view rWhole64x1024.toLoadRect R2)) [] inb_S256x1024_S256x1024_0_0
  have e731 : tail_run.sl.v731 R0 R1 R2 v84 v87 v91 v95 v100 v103 v106 v110 v114 v145 v147 cst_127 = sideBySide (headV1 v100 v103 v106 v110 v114 v145 (View.readAt (Elt F) rM0.view rC1.toLoadRect R0) (View.readAt (Elt F) rM1.view rWhole64x1024.toLoadRect R1) (View.readAt (Elt F) rM2.view rWhole64x1024.toLoadRect R2)) :=
    readAt_whole_cols16 oM.view _ (headV1 v100 v103 v106 v110 v114 v145 (View.readAt (Elt F) rM0.view rC1.toLoadRect R0) (View.readAt (Elt F) rM1.view rWhole64x1024.toLoadRect R1) (View.readAt (Elt F) rM2.view rWhole64x1024.toLoadRect R2)) (cols16 (headV0 v84 v87 v91 v95 v145 v147 cst_127 (View.readAt (Elt F) rM0.view rC0.toLoadRect R0) (View.readAt (Elt F) rM1.view rWhole64x1024.toLoadRect R1) (View.readAt (Elt F) rM2.view rWhole64x1024.toLoadRect R2))) inb_S256x1024_S256x1024_0_0
  have e40 : ∀ (s : Fin 256) (n : Fin 1024), tail_run.sl.dma40 a7 R0 R1 R2 g7 v84 v87 v91 v95 v145 v147 cst_127 (ValueIdx.ix2 s n)
      = k0_pay52 (sideBySide (headV0 v84 v87 v91 v95 v145 v147 cst_127 (View.readAt (Elt F) rM0.view rC0.toLoadRect R0) (View.readAt (Elt F) rM1.view rWhole64x1024.toLoadRect R1) (View.readAt (Elt F) rM2.view rWhole64x1024.toLoadRect R2))) (View.readAt (Elt F) aM7.view rWhole1024x1024.toLoadRect a7) (ValueIdx.ix3 (0 : Fin 1) s n) := fun s n => by
    rw [← e432]
    exact read_sq_writes_cons vM.view g7 ![0, 0, 0] inb_S2x256x1024_S1x256x1024_0_0_0 _ _ [] s n
  have e80 : ∀ (s : Fin 256) (n : Fin 1024), tail_run.sl.dma80 a7 R0 R1 R2 g7 v84 v87 v91 v95 v100 v103 v106 v110 v114 v145 v147 cst_127 (ValueIdx.ix2 s n)
      = k0_pay86 (sideBySide (headV1 v100 v103 v106 v110 v114 v145 (View.readAt (Elt F) rM0.view rC1.toLoadRect R0) (View.readAt (Elt F) rM1.view rWhole64x1024.toLoadRect R1) (View.readAt (Elt F) rM2.view rWhole64x1024.toLoadRect R2))) (View.readAt (Elt F) aM7.view rWhole1024x1024.toLoadRect a7) (ValueIdx.ix3 (0 : Fin 1) s n) := fun s n => by
    rw [← e731]
    exact read_sq_writes_cons vM.view g7 ![1, 0, 0] inb_S2x256x1024_S1x256x1024_1_0_0 _ _ _ s n
  have eC : View.write (Elt F) ((yM.slice rX1 (fun _ => rfl)).squeeze S256x1024 squeezes_S1x256x1024_S256x1024).view
        (View.write (Elt F) ((yM.slice rX0 (fun _ => rfl)).squeeze S256x1024 squeezes_S1x256x1024_S256x1024).view
          hv (tail_run.sl.dma40 a7 R0 R1 R2 g7 v84 v87 v91 v95 v145 v147 cst_127) Finset.univ)
        (tail_run.sl.dma80 a7 R0 R1 R2 g7 v84 v87 v91 v95 v100 v103 v106 v110 v114 v145 v147 cst_127) Finset.univ
      = tailOut v84 v87 v91 v95 v100 v103 v106 v110 v114 v145 v147 cst_127 R0 R1 R2 a7 := by
    refine funext fun (i : S2x256x1024.Idx) => ?_
    have h := read_two_rows yM.view hv (tail_run.sl.dma40 a7 R0 R1 R2 g7 v84 v87 v91 v95 v145 v147 cst_127) (tail_run.sl.dma80 a7 R0 R1 R2 g7 v84 v87 v91 v95 v100 v103 v106 v110 v114 v145 v147 cst_127)
      squeezes_S1x256x1024_S256x1024.numel_eq squeezes_S1x256x1024_S256x1024.numel_eq (i 0) (i 1) (i 2)
    refine Eq.trans (congrArg _ (ValueIdx.eq_ix3 i)) (h.trans ?_)
    unfold tailOut
    by_cases hb : (i 0).val = 0
    · rw [if_pos hb, if_pos hb]; exact e40 (i 1) (i 2)
    · rw [if_neg hb, if_neg hb]; exact e80 (i 1) (i 2)
  rw [eC]
  iapply Hk
  unfold tailPost
  iframe
  isplitl [G6]; · iexists _; iexact G6
  isplitl [G7]; · iexists _; iexact G7
  isplitl [HS0]; · iexact HS0
  isplitl [HS1]; · iexact HS1
  iexists _; iexact HO

end Cert.KernelIdeal.Hand

end
-- ==== Proof.Launch.lean ====
import proofs.«900965_g7700000000000966_dist_mla_v7x_xyz2x2x2_y_b2_s256_d1024_dc64_f32_1_alg».proof.Proof.Proto
import proofs.«900965_g7700000000000966_dist_mla_v7x_xyz2x2x2_y_b2_s256_d1024_dc64_f32_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

abbrev tokOf (ck : Dev nD × Fin 7) : GSem nD τ sig × ℕ × Unit := (kcell ck, 0, ())
theorem tokOf_injective : Function.Injective (tokOf : Dev nD × Fin 7 → GSem nD τ sig × ℕ × Unit) :=
  fun a b h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), (initOf ringCells ringToks, 1))

def toks (c : Dev nD) : sProp 𝕄 := bigSep Finset.univ fun k : Fin 7 => dutyTok ER (kcell (c, k)) 0 ()

def G (c : Dev nD) : sProp 𝕄 :=
  iprop((bigSep Finset.univ fun k : Fin 7 => roundState ER (Rd m) (kcell (c, k)) 0)
    ∗ (bigSep Finset.univ fun k : Fin 7 => iprop(atPos ER (kcell (c, k)) 0 ∅ 0 ∗ reached ER (kcell (c, k)) 0)) ∗ toks c)

def G' (c : Dev nD) : sProp 𝕄 := iprop(∃ K, ghost m K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

omit [FloatOps F] in

theorem ownSems0_eq (c : Dev nD) : (Pipeline.ownSems0 (Ix := Unit) (Name := ℕ) (U := UU) (Lvl := ℕ) (Val := Elt F) (τ := τ) osem c : sProp 𝕄)
    = iprop(semVal (sendCell0 c) 0 ∗ semVal (sendCell1 c) 0 ∗ semVal (sendCell2 c) 0
      ∗ semVal (recvCell0 c) 0 ∗ semVal (recvCell1 c) 0 ∗ semVal (recvCell2 c) 0
      ∗ semVal ((c : Thread nD τ), .dma storeS0.sem) 0 ∗ semVal ((c : Thread nD τ), .dma storeS1.sem) 0) := by
  rw [Pipeline.ownSems0_eq_of_list c osem [0, 1, 2, 3, 4, 5, 6, 7] (by decide) (by decide)]; rfl
omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in

theorem outPts_eq (c : Dev nD) (f : (main_v1 : Ref sig .tc).ty.Contents (Elt F)) :
    outPts c f = (((c : Thread nD τ).loc main_v1) ↦{fullShare} f : sProp 𝕄) := by unfold outPts; rw [View.set_whole]

omit [FloatOps F] in
theorem creds (c : Dev nD) :
    (Pipeline.launchCred O₀ c : sProp 𝕄) ⊢ iprop(cred (tallyAt (barCell c) () 1)
      ∗ cred (tallyAt (recvCell0 c) () N0) ∗ cred (tallyAt (recvCell1 c) () N1) ∗ cred (tallyAt (recvCell2 c) () N1)) := by
  have e : (Pipeline.launchCred O₀ c : sProp 𝕄)
      = iprop(((Pipeline.launchCred (fun d => tallyAt (recvCell0 (nbr d)) () N0) c ∗ Pipeline.launchCred (fun d => tallyAt (recvCell2 (nbr d)) () N1) c)
          ∗ Pipeline.launchCred (fun d => tallyAt (recvCell1 (nbr d)) () N1) c) ∗ Pipeline.launchCred (fun d => tallyAt (barCell (nbr d)) () 1) c) := by
    rw [← Pipeline.launchCred_add, ← Pipeline.launchCred_add, ← Pipeline.launchCred_add]; rfl
  rw [e]
  iintro ⟨⟨⟨H0, H2⟩, H1⟩, HB⟩
  isplitl [HB]; · iapply (Pipeline.launchCred_tallyAt (.reg barS) nbr nbr nbr_nbr nbr_nbr () 1 c); iexact HB
  isplitl [H0]; · iapply (Pipeline.launchCred_tallyAt (.dma recvS0.sem) nbr nbr nbr_nbr nbr_nbr () N0 c); iexact H0
  isplitl [H1]; · iapply (Pipeline.launchCred_tallyAt (.dma recvS1.sem) nbr nbr nbr_nbr nbr_nbr () N1 c); iexact H1
  iapply (Pipeline.launchCred_tallyAt (.dma recvS2.sem) nbr nbr nbr_nbr nbr_nbr () N1 c); iexact H2

def stores (c : Dev nD) : sProp 𝕄 :=
  iprop(semVal ((c : Thread nD τ), .dma storeS0.sem) 0 ∗ semVal ((c : Thread nD τ), .dma storeS1.sem) 0)

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ stores c) : sProp 𝕄) := by
  rw [ownSems0_eq, unscopedSems0_eq, bigSep_fin7]
  unfold stores
  iintro ⟨⟨S0, S1, S2, R0, R1, R2, T0, T1⟩, HB⟩
  iframe

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ stores c) := by
  unfold G
  iintro ⟨Hos, Hus, Hst, Hat, Htok⟩
  ihave Hv := (sems0_eq (F := F) c) $$ [Hos Hus]
  · isplitl [Hos] <;> iassumption
  icases Hv with ⟨Hv, Hsto⟩
  imod (show iprop((bigSep Finset.univ fun k : Fin 7 => semVal (kcell (c, k)) 0) ∗ bigSep Finset.univ fun k : Fin 7 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  iframe

def records (K : Dev nD × Fin 7 → ℕ) : sProp 𝕄 :=
  iprop((bigSep Finset.univ fun ck : Dev nD × Fin 7 => cellInv ER (Rd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

def payToks (c : Dev nD) : sProp 𝕄 :=
  iprop(dutyTok ER (barCell (nbr c)) 0 ()
    ∗ dutyTok ER (recvCell0 (nbr c)) 0 () ∗ dutyTok ER (recvCell1 (nbr c)) 0 () ∗ dutyTok ER (recvCell2 (nbr c)) 0 ()
    ∗ dutyTok ER (sendCell0 c) 0 () ∗ dutyTok ER (sendCell1 c) 0 () ∗ dutyTok ER (sendCell2 c) 0 ())
def linear (c : Dev nD) : sProp 𝕄 :=
  iprop((atPos ER (barCell c) 0 ∅ 0
      ∗ atPos ER (sendCell0 c) 0 ∅ 0 ∗ atPos ER (sendCell1 c) 0 ∅ 0 ∗ atPos ER (sendCell2 c) 0 ∅ 0
      ∗ atPos ER (recvCell0 c) 0 ∅ 0 ∗ atPos ER (recvCell1 c) 0 ∅ 0 ∗ atPos ER (recvCell2 c) 0 ∅ 0)
    ∗ payToks c ∗ stores c)

theorem ghost_intro (K : Dev nD × Fin 7 → ℕ) (c : Dev nD) : iprop(records m K ∗ linear c) ⊢ G' m c := by
  unfold records linear payToks stores G' ghost invs
  iintro ⟨⟨#HI, #HR⟩, ⟨HaB, HaS0, HaS1, HaS2, HaR0, HaR1, HaR2⟩, ⟨HtB, HtR0, HtR1, HtR2, HtS0, HtS1, HtS2⟩, HT0, HT1⟩
  iexists K
  iframe
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (nbr c, 0)); iexact HI
    isplitr; · iapply (inv_at m K (nbr c, 4)); iexact HI
    isplitr; · iapply (inv_at m K (nbr c, 5)); iexact HI
    iapply (inv_at m K (nbr c, 6)); iexact HI
  isplitr; · iapply (reached_at (F := F) (nbr c, 0)); iexact HR
  isplitr; · iapply (reached_at (F := F) (nbr c, 4)); iexact HR
  isplitr; · iapply (reached_at (F := F) (nbr c, 5)); iexact HR
  isplitr; · iapply (reached_at (F := F) (nbr c, 6)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  iapply (reached_at (F := F) (c, 6)); iexact HR

omit [FloatOps F] in
theorem toks_eq (c : Dev nD) : (toks c : sProp 𝕄) = iprop(dutyTok ER (barCell c) 0 ()
    ∗ dutyTok ER (sendCell0 c) 0 () ∗ dutyTok ER (sendCell1 c) 0 () ∗ dutyTok ER (sendCell2 c) 0 ()
    ∗ dutyTok ER (recvCell0 c) 0 () ∗ dutyTok ER (recvCell1 c) 0 () ∗ dutyTok ER (recvCell2 c) 0 ()) := by
  unfold toks; rw [bigSep_fin7]

omit [FloatOps F] in

theorem toks_around : (bigSep Finset.univ fun c : Dev nD => (toks c : sProp 𝕄)) ⊢ bigSep Finset.univ fun c : Dev nD => payToks c := by
  rw [bigSep_congr (s := Finset.univ) fun (c : Dev nD) _ => toks_eq (F := F) c]
  unfold payToks
  simp only [bigSep_sep']
  rw [bigSep_univ_equiv pair (fun c : Dev nD => (dutyTok ER (barCell c) 0 () : sProp 𝕄)),
    bigSep_univ_equiv pair (fun c : Dev nD => (dutyTok ER (recvCell0 c) 0 () : sProp 𝕄)),
    bigSep_univ_equiv pair (fun c : Dev nD => (dutyTok ER (recvCell1 c) 0 () : sProp 𝕄)),
    bigSep_univ_equiv pair (fun c : Dev nD => (dutyTok ER (recvCell2 c) 0 () : sProp 𝕄))]
  iintro ⟨HB, HS0, HS1, HS2, HR0, HR1, HR2⟩
  iframe
  isplitl [HB]; · iexact HB
  isplitl [HR0]; · iexact HR0
  isplitl [HR1]; · iexact HR1
  iexact HR2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro :
    iprop((bigSep Finset.univ fun c : Dev nD => bigSep Finset.univ fun k : Fin 7 => (atPos ER (kcell (c, k)) 0 ∅ 0 : sProp 𝕄))
        ∗ (bigSep Finset.univ fun c : Dev nD => payToks c) ∗ (bigSep Finset.univ fun c : Dev nD => stores c))
      ⊢ (bigSep Finset.univ fun c : Dev nD => linear c : sProp 𝕄) := by
  rw [← bigSep_sep', ← bigSep_sep']
  exact bigSep_mono fun c _ => Entails.of_eq (show iprop((bigSep Finset.univ fun k : Fin 7 => (atPos ER (kcell (c, k)) 0 ∅ 0 : sProp 𝕄)) ∗ payToks c ∗ stores c) = linear c from by
    unfold linear; rw [bigSep_fin7])

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ stores c) : sProp 𝕄)
      ⊢ bigSep Finset.univ (G' m) := by
  rw [bigSep_sep', bigSep_sep', bigSep_sep', ← bigSep_univ_prod (fun ck : Dev nD × Fin 7 => iprop(∃ κ : ℕ, cellInv ER (Rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hsto⟩
  ihave HK := (BI.bigSep_exists_pi Finset.univ (fun (ck : Dev nD × Fin 7) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_intro (F := F))
    iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hout, Hlev, Hcr, -, HG⟩
  ihave Hc := (creds (F := F) c) $$ Hcr
  icases Hc with ⟨HB, H0, H1, H2⟩
  imodintro
  unfold start G'
  rw [outPts_eq]
  iframe

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  iframe

theorem phi1_exit (c : Dev nD) :
    (dats m ρ 0 c).Φ (Fin.last cfg0.N) ⊢ iprop(outPts c (outVal m c) ∗ Pipeline.ownSems0 osem c ∗ Pipeline.scopedRest cfg0.spec c) := by
  rw [show (dats m ρ 0 c).Φ (Fin.last cfg0.N) = Φ₁ m c from rfl, scopedRest0_eq, ownSems0_eq]
  unfold Φ₁ scratches
  iintro ⟨Hr, Hz, Hout⟩
  iframe

omit [FloatOps F] in
theorem tally_pos {g0 g : GSem nD τ sig} {n : ℕ} {u : Unit} (h : 0 < tallyAt g0 () n g u) : g = g0 := by
  rw [tallyAt_apply] at h
  by_contra hne
  rw [if_neg (fun hh => hne hh.1)] at h
  exact absurd h (Nat.lt_irrefl 0)

omit [FloatOps F] in
theorem O1_pos {c : Dev nD} {g : GSem nD τ sig} {u : Unit} (h : 0 < O1 c g u) :
    g = recvCell0 (nbr c) ∨ g = recvCell1 (nbr c) ∨ g = recvCell2 (nbr c) := by
  unfold O1 O2 O3 at h
  rcases Pipeline.add_pos_cases h with h | h
  · rcases Pipeline.add_pos_cases h with h | h
    · exact Or.inl (tally_pos h)
    · exact Or.inr (Or.inr (tally_pos h))
  · exact Or.inr (Or.inl (tally_pos h))

omit [FloatOps F] in
theorem O₀_pos {c : Dev nD} {g : GSem nD τ sig} {u : Unit} (h : 0 < O₀ c g u) :
    g = barCell (nbr c) ∨ g = recvCell0 (nbr c) ∨ g = recvCell1 (nbr c) ∨ g = recvCell2 (nbr c) := by
  unfold O₀ at h
  rcases Pipeline.add_pos_cases h with h | h
  · exact Or.inr (O1_pos h)
  · exact Or.inl (tally_pos h)

omit [FloatOps F] in
theorem lv_bar (d : Dev nD) (u : Unit) : lv (barCell d) u = 1 := by dsimp only [lv]; rw [if_pos rfl]
omit [FloatOps F] in
theorem lv_recv0 (d : Dev nD) (u : Unit) : lv (recvCell0 d) u = 2 := by
  dsimp only [lv]; rw [if_neg (fun h => by cases h), if_pos (Or.inl rfl)]
omit [FloatOps F] in
theorem lv_recv1 (d : Dev nD) (u : Unit) : lv (recvCell1 d) u = 2 := by
  dsimp only [lv]; rw [if_neg (fun h => by cases h), if_pos (Or.inr (Or.inl rfl))]
omit [FloatOps F] in
theorem lv_recv2 (d : Dev nD) (u : Unit) : lv (recvCell2 d) u = 2 := by
  dsimp only [lv]; rw [if_neg (fun h => by cases h), if_pos (Or.inr (Or.inr rfl))]

omit [FloatOps F] in
theorem mem_L (d : Dev nD) (sm : SemLoc sig) : () ∈ L ((d : Thread nD τ), sm) := by rw [L_tc]; exact Finset.mem_singleton_self _

omit [FloatOps F] in

theorem mayWait_stage (c : Dev nD) (q : DmaSem sig)
    (hq : ¬(SemLoc.dma q = .dma recvS0.sem ∨ SemLoc.dma q = .dma recvS1.sem ∨ SemLoc.dma q = .dma recvS2.sem))
    (O : CellTallies nD τ sig Unit) (hO : O = O₀ c ∨ O = 0) :
    (levAts L lv : sProp 𝕄) ⊢ MayWait (c : Thread nD τ) (.dma q) () O := by
  rcases hO with rfl | rfl
  · have h0 : lv ((c : Thread nD τ), .dma q) () = 0 := by dsimp only [lv]; rw [if_neg (fun h => by cases h), if_neg hq]
    refine Pipeline.mayWait_of_levAts (mem_L c _) fun g u hg => ?_
    rcases O₀_pos hg with rfl | rfl | rfl | rfl
    · exact ⟨mem_L _ _, by rw [h0, lv_bar]; decide⟩
    · exact ⟨mem_L _ _, by rw [h0, lv_recv0]; decide⟩
    · exact ⟨mem_L _ _, by rw [h0, lv_recv1]; decide⟩
    · exact ⟨mem_L _ _, by rw [h0, lv_recv2]; decide⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

omit [FloatOps F] in

theorem mayWait_bar (c : Dev nD) : (levAts L lv : sProp 𝕄) ⊢ MayWait (c : Thread nD τ) (.reg barS) () (O1 c) := by
  refine Pipeline.mayWait_of_levAts (mem_L c _) fun g u hg => ?_
  have h1 : lv ((c : Thread nD τ), .reg barS) () = 1 := lv_bar c ()
  rcases O1_pos hg with rfl | rfl | rfl
  · exact ⟨mem_L _ _, by rw [h1, lv_recv0]; decide⟩
  · exact ⟨mem_L _ _, by rw [h1, lv_recv1]; decide⟩
  · exact ⟨mem_L _ _, by rw [h1, lv_recv2]; decide⟩

set_option maxRecDepth 16384 in

theorem run_main (hbody : ∀ c : Dev nD, BodyObligation (dats (F := F) m ρ 0 c) (defs₀ (F := F)) 𝒱₀ () Set.univ) :
    θ_run defs (onTc (τ := τ) (main (F := F))) (s₀ m ρ) (fun r => ∀ c : Dev nD,
      r.2.mem ((c.tc : Thread nD τ).loc main_v1) = outVal m c
      ∧ ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HR⟩
      ihave H2 := (own_pair_emb ERC _ _) $$ HR
      icases H2 with ⟨HX, -⟩
      ihave HX' := (show (BI.own (((Emb.inl : Emb UB (UB × Counters)).trans ERC) (initOf ringCells ringToks)) : sProp 𝕄)
          ⊢ BI.own (ER (initOf ringCells ringToks)) from .rfl) $$ HX
      imod (fund_ring m) $$ HX' with HG
      imodintro
      isplitl [HP] <;> iassumption)
    (hglob := glob m)
    (hA := fun _ _ => rfl) (hpf := fun _ k => k.elim0)
    (X := start m) (Y := fun c => outPts c (outVal m c)) (Z := fun _ => iprop(emp))
    (hX := start_intro m ρ) (hin := phi0_intro m ρ) (hout := phi1_exit m ρ)
    (QY := fun c s => s.mem ((c.tc : Thread nD τ).loc main_v1) = outVal m c)
    (hY := fun c s' => by
      rw [outPts_eq]
      iintro ⟨Hy, -, HSI⟩
      icombine HSI Hy gives %hy
      imodintro
      isplitr; · ipureintro; exact Buf.eq_of_forall_mem_univ hy
      iexact HSI)
    (hQ := fun _ h c => ⟨(h c).2.2, (h c).1⟩)

theorem arrAt_launch (c : Dev nD) (w : Fin cfg0.W) :
    (dats (F := F) m ρ 0 c).arrAt w cfg0.N = (s₀ m ρ).mem ((cfg0.win w).arr.view.loc (c : Thread nD τ)) := by
  fin_cases w <;> exact (dats (F := F) m ρ 0 c).arrAt_in _ rfl _

/-- info: 'Cert.KernelIdeal.Hand.run_main' depends on axioms: [propext, Classical.choice, Quot.sound] -/
#guard_msgs in #print axioms run_main

end Cert.KernelIdeal.Hand

end
-- ==== Proof.Reads.lean ====
import proofs.«900965_g7700000000000966_dist_mla_v7x_xyz2x2x2_y_b2_s256_d1024_dc64_f32_1_alg».proof.Proof.Proto

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem rC0_not_mem_rC1 (x : rC0.shape.Idx) : rC0.emb x ∉ Finset.univ.map rC1.emb := by
  rw [Rect.map_emb_univ, Rect.mem_set_unit]
  intro h
  have h0 : 1 ≤ 0 + 1 * (x 0).val := (h 0).1
  have hx : (x 0).val < 1 := (x 0).isLt
  omega

theorem rd_sent0_0 (c : Dev nD) :
    View.readAt (Elt F) sM0.view rC0.toLoadRect (sent0 m c) = cs0 (x0 m c) (ld1 m c) := by
  funext x
  show sM0.view.read (Elt F)
      (sM0.view.writes (Elt F) sM0.view.junk
        (⟨rC1, cs1 (x1 m c) (ld1 m c)⟩ :: [⟨rC0, cs0 (x0 m c) (ld1 m c)⟩])) (rC0.emb x) = _
  rw [View.writes_cons, View.read_slice_write_of_not_mem rC1 _ _ _ (rC0_not_mem_rC1 x)]
  exact View.read_writes_cons_emb _ _ rC0 _ [] x

theorem rd_sent0_1 (c : Dev nD) :
    View.readAt (Elt F) sM0.view rC1.toLoadRect (sent0 m c) = cs1 (x1 m c) (ld1 m c) := by
  funext x
  show sM0.view.read (Elt F)
      (sM0.view.writes (Elt F) sM0.view.junk
        (⟨rC1, cs1 (x1 m c) (ld1 m c)⟩ :: [⟨rC0, cs0 (x0 m c) (ld1 m c)⟩])) (rC1.emb x) = _
  exact View.read_writes_cons_emb _ _ rC1 _ _ x

theorem rd_sent1 (c : Dev nD) :
    View.readAt (Elt F) sM1.view (Rect.unit (s := S64x1024) ![0, 0] S64x1024.size inb_S64x1024_S64x1024_0_0).toLoadRect (sent1 m c) = sent1 m c :=
  Memref.readAt_unit_zero (Elt F) cc0_scratch2 zero_offsets2 _ _

theorem rd_sent2 (c : Dev nD) :
    View.readAt (Elt F) sM2.view (Rect.unit (s := S64x1024) ![0, 0] S64x1024.size inb_S64x1024_S64x1024_0_0).toLoadRect (sent2 m c) = sent2 m c :=
  Memref.readAt_unit_zero (Elt F) cc0_scratch4 zero_offsets2 _ _

theorem rd_land0_0 (c : Dev nD) :
    View.readAt (Elt F) rM0.view rC0.toLoadRect (sent0 m (nbr c)) = cs0 (x0 m (nbr c)) (ld1 m (nbr c)) :=
  rd_sent0_0 m (nbr c)

theorem rd_land0_1 (c : Dev nD) :
    View.readAt (Elt F) rM0.view rC1.toLoadRect (sent0 m (nbr c)) = cs1 (x1 m (nbr c)) (ld1 m (nbr c)) :=
  rd_sent0_1 m (nbr c)

theorem rd_land1 (c : Dev nD) :
    View.readAt (Elt F) rM1.view (Rect.unit (s := S64x1024) ![0, 0] S64x1024.size inb_S64x1024_S64x1024_0_0).toLoadRect (sent1 m (nbr c)) = sent1 m (nbr c) :=
  Memref.readAt_unit_zero (Elt F) cc0_scratch3 zero_offsets2 _ _

theorem rd_land2 (c : Dev nD) :
    View.readAt (Elt F) rM2.view (Rect.unit (s := S64x1024) ![0, 0] S64x1024.size inb_S64x1024_S64x1024_0_0).toLoadRect (sent2 m (nbr c)) = sent2 m (nbr c) :=
  Memref.readAt_unit_zero (Elt F) cc0_scratch5 zero_offsets2 _ _

end Cert.KernelIdeal.Hand

end
-- ==== Proof.Body.lean ====
import proofs.«900965_g7700000000000966_dist_mla_v7x_xyz2x2x2_y_b2_s256_d1024_dc64_f32_1_alg».proof.Proof.Proto
import proofs.«900965_g7700000000000966_dist_mla_v7x_xyz2x2x2_y_b2_s256_d1024_dc64_f32_1_alg».proof.Proof.Tail
import proofs.«900965_g7700000000000966_dist_mla_v7x_xyz2x2x2_y_b2_s256_d1024_dc64_f32_1_alg».proof.Proof.TailRun
import proofs.«900965_g7700000000000966_dist_mla_v7x_xyz2x2x2_y_b2_s256_d1024_dc64_f32_1_alg».proof.Proof.Launch
import proofs.«900965_g7700000000000966_dist_mla_v7x_xyz2x2x2_y_b2_s256_d1024_dc64_f32_1_alg».proof.Proof.Reads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem landed0_eq (c' : Dev nD) (fd : Buf (Elt F) (rM0.view.loc (c' : Thread nD τ)))
    (fs : (cc0_scratch0 : Ref sig .tc).ty.Contents (Elt F)) :
    rM0.view.write (Elt F) fd (sM0.view.read (Elt F) fs) Finset.univ = fs :=
  View.write_whole_univ cc0_scratch1 fd fs

theorem wp_send0 (K : Dev nD × Fin 7 → ℕ) (c n : Dev nD) (hn : n = nbr c)
    {hsc : (rM0 : Memref sig (Dev.tc n : Thread nD τ).2.kind .vmem S2x256x64 .bf16).view.ref.isScScratch = false}
    {hsrc : sM0.view.WordExact} {hdst : rM0.view.WordExact}
    {hsem : DmaTarget.Typed .vmem (.dma recvS0.sem) (.remote (Dev.tc n : Thread nD τ) rM0 (.dma sendS0.sem) hsc)}
    {α : Type} {Q : α → sProp 𝕄} {k : PUnit → Prog (TpuEff nD τ sig (Elt F) Λ₀ .tc) α}
    (fn : Buf (Elt F) (rM0.view.loc (nbr c : Thread nD τ))) (W : Waits sig Unit)
    (O : CellTallies nD τ sig Unit) :
    iprop(cellInv ER (Rd m) (K (c, 1)) (sendCell0 c) ∗ cellInv ER (Rd m) (K (nbr c, 4)) (recvCell0 (nbr c))
        ∗ ((sM0.view.loc (c : Thread nD τ)) ↦[sM0.view.set]{fullShare.right} sent0 m c) ∗ ((rM0.view.loc (nbr c : Thread nD τ)) ↦[rM0.view.set]{fullShare} fn)
        ∗ owes (c : Thread nD τ) (O + tallyAt (recvCell0 (nbr c)) () N0) W
        ∗ dutyTok ER (sendCell0 c) 0 () ∗ reached ER (sendCell0 c) 0
        ∗ dutyTok ER (recvCell0 (nbr c)) 0 () ∗ reached ER (recvCell0 (nbr c)) 0)
      ⊢ iprop(((cred (tallyAt (sendCell0 c) () N0) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM0 (.remote (Dev.tc n : Thread nD τ) rM0 (.dma sendS0.sem) hsc) (.dma recvS0.sem) hsrc hdst hsem) k) Q) := by
  subst hn
  exact Rounds.wp_send_pointsTo 𝒱₀ ER (Rd m) (c : Thread nD τ) none (κ₁ := K (c, 1)) (κ₂ := K (nbr c, 4))
    (r₁ := 0) (r₂ := 0) (d₁ := ()) (d₂ := ()) (fd := fn)
    (by rw [duties_send0]; exact Finset.mem_singleton_self _) (by rw [duties_recv0]; exact Finset.mem_singleton_self _)
    () () N0 rfl (amount_send0 m c ()) (amount_recv0 m (nbr c) ()) O rfl (W := W)
    (by rw [payload_send0]; unfold sendPay0 sPts0; exact BI.Entails.refl _)
    (by rw [payload_recv0]; unfold recvPay0 rPts0; rw [landed0_eq, nbr_nbr])

theorem landed1_eq (c' : Dev nD) (fd : Buf (Elt F) (rM1.view.loc (c' : Thread nD τ)))
    (fs : (cc0_scratch2 : Ref sig .tc).ty.Contents (Elt F)) :
    rM1.view.write (Elt F) fd (sM1.view.read (Elt F) fs) Finset.univ = fs :=
  View.write_whole_univ cc0_scratch3 fd fs

theorem wp_send1 (K : Dev nD × Fin 7 → ℕ) (c n : Dev nD) (hn : n = nbr c)
    {hsc : (rM1 : Memref sig (Dev.tc n : Thread nD τ).2.kind .vmem S64x1024 .bf16).view.ref.isScScratch = false}
    {hsrc : sM1.view.WordExact} {hdst : rM1.view.WordExact}
    {hsem : DmaTarget.Typed .vmem (.dma recvS1.sem) (.remote (Dev.tc n : Thread nD τ) rM1 (.dma sendS1.sem) hsc)}
    {α : Type} {Q : α → sProp 𝕄} {k : PUnit → Prog (TpuEff nD τ sig (Elt F) Λ₀ .tc) α}
    (fn : Buf (Elt F) (rM1.view.loc (nbr c : Thread nD τ))) (W : Waits sig Unit)
    (O : CellTallies nD τ sig Unit) :
    iprop(cellInv ER (Rd m) (K (c, 2)) (sendCell1 c) ∗ cellInv ER (Rd m) (K (nbr c, 5)) (recvCell1 (nbr c))
        ∗ ((sM1.view.loc (c : Thread nD τ)) ↦[sM1.view.set]{fullShare.right} sent1 m c) ∗ ((rM1.view.loc (nbr c : Thread nD τ)) ↦[rM1.view.set]{fullShare} fn)
        ∗ owes (c : Thread nD τ) (O + tallyAt (recvCell1 (nbr c)) () N1) W
        ∗ dutyTok ER (sendCell1 c) 0 () ∗ reached ER (sendCell1 c) 0
        ∗ dutyTok ER (recvCell1 (nbr c)) 0 () ∗ reached ER (recvCell1 (nbr c)) 0)
      ⊢ iprop(((cred (tallyAt (sendCell1 c) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM1 (.remote (Dev.tc n : Thread nD τ) rM1 (.dma sendS1.sem) hsc) (.dma recvS1.sem) hsrc hdst hsem) k) Q) := by
  subst hn
  exact Rounds.wp_send_pointsTo 𝒱₀ ER (Rd m) (c : Thread nD τ) none (κ₁ := K (c, 2)) (κ₂ := K (nbr c, 5))
    (r₁ := 0) (r₂ := 0) (d₁ := ()) (d₂ := ()) (fd := fn)
    (by rw [duties_send1]; exact Finset.mem_singleton_self _) (by rw [duties_recv1]; exact Finset.mem_singleton_self _)
    () () N1 rfl (amount_send1 m c ()) (amount_recv1 m (nbr c) ()) O rfl (W := W)
    (by rw [payload_send1]; unfold sendPay1 sPts1; exact BI.Entails.refl _)
    (by rw [payload_recv1]; unfold recvPay1 rPts1; rw [landed1_eq, nbr_nbr])

theorem landed2_eq (c' : Dev nD) (fd : Buf (Elt F) (rM2.view.loc (c' : Thread nD τ)))
    (fs : (cc0_scratch4 : Ref sig .tc).ty.Contents (Elt F)) :
    rM2.view.write (Elt F) fd (sM2.view.read (Elt F) fs) Finset.univ = fs :=
  View.write_whole_univ cc0_scratch5 fd fs

theorem wp_send2 (K : Dev nD × Fin 7 → ℕ) (c n : Dev nD) (hn : n = nbr c)
    {hsc : (rM2 : Memref sig (Dev.tc n : Thread nD τ).2.kind .vmem S64x1024 .bf16).view.ref.isScScratch = false}
    {hsrc : sM2.view.WordExact} {hdst : rM2.view.WordExact}
    {hsem : DmaTarget.Typed .vmem (.dma recvS2.sem) (.remote (Dev.tc n : Thread nD τ) rM2 (.dma sendS2.sem) hsc)}
    {α : Type} {Q : α → sProp 𝕄} {k : PUnit → Prog (TpuEff nD τ sig (Elt F) Λ₀ .tc) α}
    (fn : Buf (Elt F) (rM2.view.loc (nbr c : Thread nD τ))) (W : Waits sig Unit)
    (O : CellTallies nD τ sig Unit) :
    iprop(cellInv ER (Rd m) (K (c, 3)) (sendCell2 c) ∗ cellInv ER (Rd m) (K (nbr c, 6)) (recvCell2 (nbr c))
        ∗ ((sM2.view.loc (c : Thread nD τ)) ↦[sM2.view.set]{fullShare.right} sent2 m c) ∗ ((rM2.view.loc (nbr c : Thread nD τ)) ↦[rM2.view.set]{fullShare} fn)
        ∗ owes (c : Thread nD τ) (O + tallyAt (recvCell2 (nbr c)) () N1) W
        ∗ dutyTok ER (sendCell2 c) 0 () ∗ reached ER (sendCell2 c) 0
        ∗ dutyTok ER (recvCell2 (nbr c)) 0 () ∗ reached ER (recvCell2 (nbr c)) 0)
      ⊢ iprop(((cred (tallyAt (sendCell2 c) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM2 (.remote (Dev.tc n : Thread nD τ) rM2 (.dma sendS2.sem) hsc) (.dma recvS2.sem) hsrc hdst hsem) k) Q) := by
  subst hn
  exact Rounds.wp_send_pointsTo 𝒱₀ ER (Rd m) (c : Thread nD τ) none (κ₁ := K (c, 3)) (κ₂ := K (nbr c, 6))
    (r₁ := 0) (r₂ := 0) (d₁ := ()) (d₂ := ()) (fd := fn)
    (by rw [duties_send2]; exact Finset.mem_singleton_self _) (by rw [duties_recv2]; exact Finset.mem_singleton_self _)
    () () N1 rfl (amount_send2 m c ()) (amount_recv2 m (nbr c) ()) O rfl (W := W)
    (by rw [payload_send2]; unfold sendPay2 sPts2; exact BI.Entails.refl _)
    (by rw [payload_recv2]; unfold recvPay2 rPts2; rw [landed2_eq, nbr_nbr])

theorem sent1_split (c : Dev nD) (g : (cc0_scratch2 : Ref sig .tc).ty.Contents (Elt F)) :
    ((sM1.view.loc (c : Thread nD τ)) ↦[sM1.view.set]{fullShare} (sM1.view.writes (Elt F) g [⟨(Rect.unit (s := S64x1024) ![0, 0] S64x1024.size inb_S64x1024_S64x1024_0_0), k0_pay1 (View.readAt (Elt F) aM2.view (Rect.unit (s := S64x1024) ![0, 0] S64x1024.size inb_S64x1024_S64x1024_0_0).toLoadRect (stg2 m c))⟩]))
      ⊢ (iprop(((sM1.view.loc (c : Thread nD τ)) ↦[sM1.view.set]{fullShare.left} sent1 m c) ∗ ((sM1.view.loc (c : Thread nD τ)) ↦[sM1.view.set]{fullShare.right} sent1 m c)) : sProp 𝕄) := by
  have e : (sM1.view.writes (Elt F) g [⟨(Rect.unit (s := S64x1024) ![0, 0] S64x1024.size inb_S64x1024_S64x1024_0_0), k0_pay1 (View.readAt (Elt F) aM2.view (Rect.unit (s := S64x1024) ![0, 0] S64x1024.size inb_S64x1024_S64x1024_0_0).toLoadRect (stg2 m c))⟩]) = sent1 m c := by
    rw [View.writes_singleton]; exact Memref.write_access_unit_zero_univ (Elt F) cc0_scratch2 zero_offsets2 _ g _
  rw [e]; exact (pointsTo_share (PosShare.mem_left_op_right fullShare)).1
theorem sent2_split (c : Dev nD) (g : (cc0_scratch4 : Ref sig .tc).ty.Contents (Elt F)) :
    ((sM2.view.loc (c : Thread nD τ)) ↦[sM2.view.set]{fullShare} (sM2.view.writes (Elt F) g [⟨(Rect.unit (s := S64x1024) ![0, 0] S64x1024.size inb_S64x1024_S64x1024_0_0), k0_pay2 (View.readAt (Elt F) aM3.view (Rect.unit (s := S64x1024) ![0, 0] S64x1024.size inb_S64x1024_S64x1024_0_0).toLoadRect (stg3 m c))⟩]))
      ⊢ (iprop(((sM2.view.loc (c : Thread nD τ)) ↦[sM2.view.set]{fullShare.left} sent2 m c) ∗ ((sM2.view.loc (c : Thread nD τ)) ↦[sM2.view.set]{fullShare.right} sent2 m c)) : sProp 𝕄) := by
  have e : (sM2.view.writes (Elt F) g [⟨(Rect.unit (s := S64x1024) ![0, 0] S64x1024.size inb_S64x1024_S64x1024_0_0), k0_pay2 (View.readAt (Elt F) aM3.view (Rect.unit (s := S64x1024) ![0, 0] S64x1024.size inb_S64x1024_S64x1024_0_0).toLoadRect (stg3 m c))⟩]) = sent2 m c := by
    rw [View.writes_singleton]; exact Memref.write_access_unit_zero_univ (Elt F) cc0_scratch4 zero_offsets2 _ g _
  rw [e]; exact (pointsTo_share (PosShare.mem_left_op_right fullShare)).1

theorem sent0_split (c : Dev nD) (g : (cc0_scratch0 : Ref sig .tc).ty.Contents (Elt F)) (r : FVec F S256x64 .f32)
    (hr : r = k0_pay4 (View.readAt (Elt F) aM0.view rX1.toLoadRect (stg0 m c)) (View.readAt (Elt F) aM1.view (Rect.unit (s := S1024x64) ![0, 0] S1024x64.size inb_S1024x64_S1024x64_0_0).toLoadRect (stg1 m c))) :
    ((sM0.view.loc (c : Thread nD τ)) ↦[sM0.view.set]{fullShare} (sM0.view.writes (Elt F) g [⟨rC1, k0_pay5 r⟩, ⟨rC0, k0_pay3 (View.readAt (Elt F) aM0.view rX0.toLoadRect (stg0 m c)) (View.readAt (Elt F) aM1.view (Rect.unit (s := S1024x64) ![0, 0] S1024x64.size inb_S1024x64_S1024x64_0_0).toLoadRect (stg1 m c))⟩]))
      ⊢ (iprop(((sM0.view.loc (c : Thread nD τ)) ↦[sM0.view.set]{fullShare.left} sent0 m c) ∗ ((sM0.view.loc (c : Thread nD τ)) ↦[sM0.view.set]{fullShare.right} sent0 m c)) : sProp 𝕄) := by
  subst hr
  have e := Memref.writes_eq_junk_of_covChk (Val := Elt F) (m := sM0) (Memref.isWhole_whole _) g
    [⟨rC1, k0_pay5 (k0_pay4 (View.readAt (Elt F) aM0.view rX1.toLoadRect (stg0 m c)) (View.readAt (Elt F) aM1.view (Rect.unit (s := S1024x64) ![0, 0] S1024x64.size inb_S1024x64_S1024x64_0_0).toLoadRect (stg1 m c)))⟩, ⟨rC0, k0_pay3 (View.readAt (Elt F) aM0.view rX0.toLoadRect (stg0 m c)) (View.readAt (Elt F) aM1.view (Rect.unit (s := S1024x64) ![0, 0] S1024x64.size inb_S1024x64_S1024x64_0_0).toLoadRect (stg1 m c))⟩]
    (.split 0 1 (.leaf 1) (.leaf 0))
    (show LoadRect.covChk [rC1, rC0] (LoadRect.whole S2x256x64) (.split 0 1 (.leaf 1) (.leaf 0)) = true by decide)
  rw [e]; exact (pointsTo_share (PosShare.mem_left_op_right fullShare)).1

theorem got_send0 (c : Dev nD) : bigSep ((Rd (F := F) m).duties (sendCell0 c) 0) (fun d => (Rd (F := F) m).payload (sendCell0 c) 0 d)
    = ((sM0.view.loc (c : Thread nD τ)) ↦[sM0.view.set]{fullShare.right} sent0 m c) := by
  rw [duties_send0, bigSep_singleton, payload_send0]; unfold sendPay0 sPts0; rfl
theorem got_recv0 (c : Dev nD) : bigSep ((Rd (F := F) m).duties (recvCell0 c) 0) (fun d => (Rd (F := F) m).payload (recvCell0 c) 0 d)
    = ((rM0.view.loc (c : Thread nD τ)) ↦[rM0.view.set]{fullShare} (sent0 m (nbr c))) := by
  rw [duties_recv0, bigSep_singleton, payload_recv0]; unfold recvPay0 rPts0; rfl
theorem got_send1 (c : Dev nD) : bigSep ((Rd (F := F) m).duties (sendCell1 c) 0) (fun d => (Rd (F := F) m).payload (sendCell1 c) 0 d)
    = ((sM1.view.loc (c : Thread nD τ)) ↦[sM1.view.set]{fullShare.right} sent1 m c) := by
  rw [duties_send1, bigSep_singleton, payload_send1]; unfold sendPay1 sPts1; rfl
theorem got_recv1 (c : Dev nD) : bigSep ((Rd (F := F) m).duties (recvCell1 c) 0) (fun d => (Rd (F := F) m).payload (recvCell1 c) 0 d)
    = ((rM1.view.loc (c : Thread nD τ)) ↦[rM1.view.set]{fullShare} (sent1 m (nbr c))) := by
  rw [duties_recv1, bigSep_singleton, payload_recv1]; unfold recvPay1 rPts1; rfl
theorem got_send2 (c : Dev nD) : bigSep ((Rd (F := F) m).duties (sendCell2 c) 0) (fun d => (Rd (F := F) m).payload (sendCell2 c) 0 d)
    = ((sM2.view.loc (c : Thread nD τ)) ↦[sM2.view.set]{fullShare.right} sent2 m c) := by
  rw [duties_send2, bigSep_singleton, payload_send2]; unfold sendPay2 sPts2; rfl
theorem got_recv2 (c : Dev nD) : bigSep ((Rd (F := F) m).duties (recvCell2 c) 0) (fun d => (Rd (F := F) m).payload (recvCell2 c) 0 d)
    = ((rM2.view.loc (c : Thread nD τ)) ↦[rM2.view.set]{fullShare} (sent2 m (nbr c))) := by
  rw [duties_recv2, bigSep_singleton, payload_recv2]; unfold recvPay2 rPts2; rfl

theorem tailOut_eq_outVal (c : Dev nD) :
    tailOut (k0_pay8 (x0 m c) (ld5 m c)) (kr0 (x0 m c) (ld6 m c)) (km0 (x0 m c) (ld1 m c) (ld2 m c)) (vm0 (x0 m c) (ld1 m c) (ld3 m c)) (k0_pay13 (x1 m c) (ld4 m c)) (k0_pay14 (x1 m c) (ld5 m c)) (kr1 (x1 m c) (ld6 m c)) (km1 (x1 m c) (ld1 m c) (ld2 m c)) (vm1 (x1 m c) (ld1 m c) (ld3 m c)) (ones (F := F)) (q0 (x0 m c) (ld4 m c)) (sc (F := F)) (sent0 m (nbr c)) (sent1 m (nbr c)) (sent2 m (nbr c)) (stg7 m c) = outVal m c := by
  unfold tailOut outVal outB0 outB1
  rw [headV0_eq, headV1_eq]
  rfl

def cleanPost (c : Dev nD) : sProp 𝕄 :=
  iprop((∃ f, ((sM0.view.loc (c : Thread nD τ)) ↦[sM0.view.set]{fullShare} f))
    ∗ (∃ f, ((rM0.view.loc (c : Thread nD τ)) ↦[rM0.view.set]{fullShare} f))
    ∗ (∃ f, ((sM1.view.loc (c : Thread nD τ)) ↦[sM1.view.set]{fullShare} f))
    ∗ (∃ f, ((rM1.view.loc (c : Thread nD τ)) ↦[rM1.view.set]{fullShare} f))
    ∗ (∃ f, ((sM2.view.loc (c : Thread nD τ)) ↦[sM2.view.set]{fullShare} f))
    ∗ (∃ f, ((rM2.view.loc (c : Thread nD τ)) ↦[rM2.view.set]{fullShare} f))
    ∗ (∃ f, ((oM.view.loc (c : Thread nD τ)) ↦[oM.view.set]{fullShare} f))
    ∗ (∃ f, ((vM.view.loc (c : Thread nD τ)) ↦[vM.view.set]{fullShare} f))
    ∗ semVal (sendCell0 c) 0 ∗ semVal (sendCell1 c) 0 ∗ semVal (sendCell2 c) 0
    ∗ semVal (recvCell0 c) 0 ∗ semVal (recvCell1 c) 0 ∗ semVal (recvCell2 c) 0
    ∗ semVal ((c : Thread nD τ), .dma storeS0.sem) 0 ∗ semVal ((c : Thread nD τ), .dma storeS1.sem) 0
    ∗ outPts c (outVal m c)
    ∗ (∃ W', owes (c : Thread nD τ) 0 W')
    ∗ ((aM0.view.loc (c : Thread nD τ)) ↦[aM0.view.set]{fullShare} stg0 m c)
    ∗ ((aM1.view.loc (c : Thread nD τ)) ↦[aM1.view.set]{fullShare} stg1 m c)
    ∗ ((aM2.view.loc (c : Thread nD τ)) ↦[aM2.view.set]{fullShare} stg2 m c)
    ∗ ((aM3.view.loc (c : Thread nD τ)) ↦[aM3.view.set]{fullShare} stg3 m c)
    ∗ ((aM4.view.loc (c : Thread nD τ)) ↦[aM4.view.set]{fullShare} stg4 m c)
    ∗ ((aM5.view.loc (c : Thread nD τ)) ↦[aM5.view.set]{fullShare} stg5 m c)
    ∗ ((aM6.view.loc (c : Thread nD τ)) ↦[aM6.view.set]{fullShare} stg6 m c)
    ∗ ((aM7.view.loc (c : Thread nD τ)) ↦[aM7.view.set]{fullShare} stg7 m c))

-- From its share of the exchange's ghost state and its buffers, one device's body ends with its result array at `outVal`.
set_option maxHeartbeats 4000000 in
theorem sound_body (K : Dev nD × Fin 7 → ℕ) (c : Dev nD) (Kt : PUnit → sProp 𝕄) (W : Waits sig Unit) (g0 : (cc0_scratch0 : Ref sig .tc).ty.Contents (Elt F)) (g1 : (cc0_scratch1 : Ref sig .tc).ty.Contents (Elt F)) (g2 : (cc0_scratch2 : Ref sig .tc).ty.Contents (Elt F)) (g3 : (cc0_scratch3 : Ref sig .tc).ty.Contents (Elt F)) (g4 : (cc0_scratch4 : Ref sig .tc).ty.Contents (Elt F)) (g5 : (cc0_scratch5 : Ref sig .tc).ty.Contents (Elt F)) (g6 : (cc0_scratch6 : Ref sig .tc).ty.Contents (Elt F)) (g7 : (cc0_scratch7 : Ref sig .tc).ty.Contents (Elt F)) :
    iprop(ghost m K c
        ∗ cred (tallyAt (barCell c) () 1)
        ∗ cred (tallyAt (recvCell0 c) () N0)
        ∗ cred (tallyAt (recvCell1 c) () N1)
        ∗ cred (tallyAt (recvCell2 c) () N1)
        ∗ levAts L lv
        ∗ outPts c (m ((c : Thread nD τ).loc main_v1))
        ∗ ((sM0.view.loc (c : Thread nD τ)) ↦[sM0.view.set]{fullShare} g0)
        ∗ ((rM0.view.loc (c : Thread nD τ)) ↦[rM0.view.set]{fullShare} g1)
        ∗ ((sM1.view.loc (c : Thread nD τ)) ↦[sM1.view.set]{fullShare} g2)
        ∗ ((rM1.view.loc (c : Thread nD τ)) ↦[rM1.view.set]{fullShare} g3)
        ∗ ((sM2.view.loc (c : Thread nD τ)) ↦[sM2.view.set]{fullShare} g4)
        ∗ ((rM2.view.loc (c : Thread nD τ)) ↦[rM2.view.set]{fullShare} g5)
        ∗ ((oM.view.loc (c : Thread nD τ)) ↦[oM.view.set]{fullShare} g6)
        ∗ ((vM.view.loc (c : Thread nD τ)) ↦[vM.view.set]{fullShare} g7)
        ∗ owes (c : Thread nD τ) (O₀ c) W
        ∗ ((aM0.view.loc (c : Thread nD τ)) ↦[aM0.view.set]{fullShare} stg0 m c)
        ∗ ((aM1.view.loc (c : Thread nD τ)) ↦[aM1.view.set]{fullShare} stg1 m c)
        ∗ ((aM2.view.loc (c : Thread nD τ)) ↦[aM2.view.set]{fullShare} stg2 m c)
        ∗ ((aM3.view.loc (c : Thread nD τ)) ↦[aM3.view.set]{fullShare} stg3 m c)
        ∗ ((aM4.view.loc (c : Thread nD τ)) ↦[aM4.view.set]{fullShare} stg4 m c)
        ∗ ((aM5.view.loc (c : Thread nD τ)) ↦[aM5.view.set]{fullShare} stg5 m c)
        ∗ ((aM6.view.loc (c : Thread nD τ)) ↦[aM6.view.set]{fullShare} stg6 m c)
        ∗ ((aM7.view.loc (c : Thread nD τ)) ↦[aM7.view.set]{fullShare} stg7 m c)
        ∗ (cleanPost m c -∗ Kt ⟨⟩))
      ⊢ wp frame (wpE (defs₀ (F := F)) 𝒱₀ c none) Set.univ
          (cc0_body aM0 (Memref.isWhole_whole _) aM1 (Memref.isWhole_whole _) aM2 (Memref.isWhole_whole _) aM3 (Memref.isWhole_whole _) aM4 (Memref.isWhole_whole _) aM5 (Memref.isWhole_whole _) aM6 (Memref.isWhole_whole _) aM7 (Memref.isWhole_whole _) yM (Memref.isWhole_whole _) sM0 (Memref.isWhole_whole _) rM0 (Memref.isWhole_whole _) sM1 (Memref.isWhole_whole _) rM1 (Memref.isWhole_whole _) sM2 (Memref.isWhole_whole _) rM2 (Memref.isWhole_whole _) oM (Memref.isWhole_whole _) vM (Memref.isWhole_whole _) cc0_scratch8 cc0_scratch9 cc0_scratch10) Kt := by
  rw [cc0_body_eq_skeleton]; unfold cc0_body_skel
  rw [k0_part21_eq_skeleton, part21_split]
  unfold ghost invs
  iintro ⟨⟨⟨#HIbar, #HIs0, #HIs1, #HIs2, #HIr0, #HIr1, #HIr2, #HIbarN, #HIr0N, #HIr1N, #HIr2N⟩, HatB, HatS0, HatS1, HatS2, HatR0, HatR1, HatR2, #HrBN, #HrR0N, #HrR1N, #HrR2N, #HrS0, #HrS1, #HrS2, #HrR0, #HrR1, #HrR2, HtBN, HtR0N, HtR1N, HtR2N, HtS0, HtS1, HtS2, HzT0, HzT1⟩, HcB, HcR0, HcR1, HcR2, #Hlev, HV, G0, G1, G2, G3, G4, G5, G6, G7, HO, H0, H1, H2, H3, H4, H5, H6, H7, Hk⟩
  sl_exec

  iapply (Rounds.wp_signal 𝒱₀ ER (Rd m) (c : Thread nD τ) none (dst := (nbr c : Thread nD τ)) (κ := K (nbr c, 0))
      (d := ()) (by rw [duties_bar]; exact Finset.mem_singleton_self _) ((amount_bar m (nbr c) ()).trans (by decide)) () (O1 c) rfl)
    $$ [HO HtBN G1 G3 G5]
  · isplitr; · iexact HIbarN
    isplitl [HO]; · iexact HO
    isplitl [HtBN]; · iexact HtBN
    isplitl [G1 G3 G5]
    · rw [payload_bar]; unfold barPay rPts0 rPts1 rPts2; rw [nbr_nbr]
      isplitl [G1]; · iexists g1; iexact G1
      isplitl [G3]; · iexists g3; iexact G3
      isplitl [G5]; · iexists g5; iexact G5
      isplitr; · iexact HrR0
      isplitr; · iexact HrR1
      iexact HrR2
    · iexact HrBN
  iintro HO
  sl_exec

  iapply (Rounds.wp_wait_rest_token 𝒱₀ ER (Rd m) (c : Thread nD τ) none (κ := K (c, 0))
      (wpE_semWait_eq 𝒱₀ (c : Thread nD τ) none Set.univ) (Set.mem_univ _) () (O := O1 c) (W := W) (R := 0) (m := 0) (T := ∅)
      (by rw [expect_bar]; decide)) $$ [HcB HO HatB]
  · iframe HIbar ∗
    isplitl [HcB]; · iexact HcB
    iapply (mayWait_bar c); iexact Hlev
  iintro ⟨HO, HatB, -, Hpay⟩
  ihave Hp := (Entails.of_eq (rest_bar m c)) $$ Hpay
  unfold barPay rPts0 rPts1 rPts2
  icases Hp with ⟨⟨%fn0, R0N⟩, ⟨%fn1, R1N⟩, ⟨%fn2, R2N⟩, -, -, -⟩
  sl_exec

  ihave G2s := (sent1_split m c g2) $$ G2
  icases G2s with ⟨G2l, G2r⟩
  iapply (wp_send1 m K c _ (dev2_eq c) fn1 _ (O2 c)) $$ [G2r R1N HO HtS1 HtR1N]
  · iframe # ∗
    iexact HO
  iintro ⟨HcS1, HO⟩
  sl_exec

  ihave G4s := (sent2_split m c g4) $$ G4
  icases G4s with ⟨G4l, G4r⟩
  iapply (wp_send2 m K c _ (dev3_eq c) fn2 _ (O3 c)) $$ [G4r R2N HO HtS2 HtR2N]
  · iframe # ∗
    iexact HO
  iintro ⟨HcS2, HO⟩
  sl_exec

  ihave G0s := (sent0_split m c g0 (sound_body.sl.r m c) rfl) $$ G0
  icases G0s with ⟨G0l, G0r⟩
  ihave HO := (Entails.of_eq (congrArg (fun o => (owes (c : Thread nD τ) o _ : sProp 𝕄)) (show O3 c = 0 + tallyAt (recvCell0 (nbr c)) () N0 from (zero_add _).symm))) $$ HO
  iapply (wp_send0 m K c _ (dev4_eq c) fn0 _ 0) $$ [G0r R0N HO HtS0 HtR0N]
  · iframe # ∗
  iintro ⟨HcS0, HO⟩

  set_option sl_exec.maxSteps 32 in sl_exec

  ihave G0r := (Entails.of_eq (got_send0 m c)) $$ HatS0_pay1
  ihave G0 := ((pointsTo_share (PosShare.mem_left_op_right fullShare)).2) $$ [G0l G0r]
  · isplitl [G0l] <;> iassumption
  ihave R0 := (Entails.of_eq (got_recv0 m c)) $$ HatR0_pay1
  ihave G2r := (Entails.of_eq (got_send1 m c)) $$ HatS1_pay1
  ihave G2 := ((pointsTo_share (PosShare.mem_left_op_right fullShare)).2) $$ [G2l G2r]
  · isplitl [G2l] <;> iassumption
  ihave R1 := (Entails.of_eq (got_recv1 m c)) $$ HatR1_pay1
  ihave G4r := (Entails.of_eq (got_send2 m c)) $$ HatS2_pay1
  ihave G4 := ((pointsTo_share (PosShare.mem_left_op_right fullShare)).2) $$ [G4l G4r]
  · isplitl [G4l] <;> iassumption
  ihave R2 := (Entails.of_eq (got_recv2 m c)) $$ HatR2_pay1

  imod (Rounds.cell_close ER (Rd m) (Set.mem_univ (K (c, 1))) (fun h => h) (R := 1) (duties_later m (sendCell0 c))) $$ [HatS0] with HzS0
  · iframe HIs0 ∗
  imod (Rounds.cell_close ER (Rd m) (Set.mem_univ (K (c, 2))) (fun h => h) (R := 1) (duties_later m (sendCell1 c))) $$ [HatS1] with HzS1
  · iframe HIs1 ∗
  imod (Rounds.cell_close ER (Rd m) (Set.mem_univ (K (c, 3))) (fun h => h) (R := 1) (duties_later m (sendCell2 c))) $$ [HatS2] with HzS2
  · iframe HIs2 ∗
  imod (Rounds.cell_close ER (Rd m) (Set.mem_univ (K (c, 4))) (fun h => h) (R := 1) (duties_later m (recvCell0 c))) $$ [HatR0] with HzR0
  · iframe HIr0 ∗
  imod (Rounds.cell_close ER (Rd m) (Set.mem_univ (K (c, 5))) (fun h => h) (R := 1) (duties_later m (recvCell1 c))) $$ [HatR1] with HzR1
  · iframe HIr1 ∗
  imod (Rounds.cell_close ER (Rd m) (Set.mem_univ (K (c, 6))) (fun h => h) (R := 1) (duties_later m (recvCell2 c))) $$ [HatR2] with HzR2
  · iframe HIr2 ∗
  unfold outPts

  iapply (tail_run c _ _ (stg0 m c) (stg1 m c) (stg2 m c) (stg3 m c) (stg4 m c) (stg5 m c) (stg6 m c) (stg7 m c) (sent0 m c) (sent1 m c) (sent2 m c) (sent0 m (nbr c)) (sent1 m (nbr c)) (sent2 m (nbr c)) g6 g7 (m ((c : Thread nD τ).loc main_v1)) _ _ _ _ _ _ _ _ _ _ _ _)
    $$ [H0 H1 H2 H3 H4 H5 H6 H7 G0 R0 G2 R1 G4 R2 G6 G7 HV HzT0 HzT1 HO HzS0 HzS1 HzS2 HzR0 HzR1 HzR2 Hk]
  iframe H0 H1 H2 H3 H4 H5 H6 H7 G0 R0 G2 R1 G4 R2 G6 G7 HV HzT0 HzT1 HO
  iintro Hpost
  unfold tailPost
  icases Hpost with ⟨P0, P1, P2, P3, P4, P5, P6, P7, Q0, Q1, Q2, Q3, Q4, Q5, ⟨%f6, Q6⟩, ⟨%f7, Q7⟩, QV, QT0, QT1, ⟨%W', QO⟩⟩
  sl_step
  iapply Hk
  unfold cleanPost outPts
  have h4 : sound_body.sl.r_4 m c = km0 (x0 m c) (ld1 m c) (ld2 m c) := by
    unfold sound_body.sl.r_4; rw [rd_sent0_0 m c, rd_sent1 m c]; rfl
  have h5 : sound_body.sl.r_5 m c = vm0 (x0 m c) (ld1 m c) (ld3 m c) := by
    unfold sound_body.sl.r_5; rw [rd_sent0_0 m c, rd_sent2 m c]; rfl
  have h9 : sound_body.sl.r_9 m c = km1 (x1 m c) (ld1 m c) (ld2 m c) := by
    unfold sound_body.sl.r_9; rw [rd_sent0_1 m c, rd_sent1 m c]; rfl
  have h10 : sound_body.sl.r_10 m c = vm1 (x1 m c) (ld1 m c) (ld3 m c) := by
    unfold sound_body.sl.r_10; rw [rd_sent0_1 m c, rd_sent2 m c]; rfl
  have e : tailOut (sound_body.sl.r_2 m c) (sound_body.sl.r_3 m c) (sound_body.sl.r_4 m c) (sound_body.sl.r_5 m c) (sound_body.sl.r_6 m c) (sound_body.sl.r_7 m c) (sound_body.sl.r_8 m c) (sound_body.sl.r_9 m c) (sound_body.sl.r_10 m c) k0_pay18 (sound_body.sl.r_11 m c) sound_body.sl.cst_127
      (sent0 m (nbr c)) (sent1 m (nbr c)) (sent2 m (nbr c)) (stg7 m c) = outVal m c := by
    rw [← tailOut_eq_outVal m c, h4, h5, h9, h10]
    rfl
  rw [← e]
  iframe HzS0 HzS1 HzS2 HzR0 HzR1 HzR2 QT0 QT1 QV P0 P1 P2 P3 P4 P5 P6 P7
  isplitl [Q0]; · iexists _; iexact Q0
  isplitl [Q1]; · iexists _; iexact Q1
  isplitl [Q2]; · iexists _; iexact Q2
  isplitl [Q3]; · iexists _; iexact Q3
  isplitl [Q4]; · iexists _; iexact Q4
  isplitl [Q5]; · iexists _; iexact Q5
  isplitl [Q6]; · iexists f6; iexact Q6
  isplitl [Q7]; · iexists f7; iexact Q7
  iexists W'; iexact QO

theorem pts_whole (r : Ref sig .tc) (c : Dev nD) (f : Buf (Elt F) ((c : Thread nD τ).loc r)) :
    ((((c : Thread nD τ).loc r) ↦{fullShare} f : sProp 𝕄)) = (((Memref.whole r).view.loc (c : Thread nD τ)) ↦[(Memref.whole r).view.set]{fullShare} f) := by
  show _ = (_ ↦[(View.whole r).set]{fullShare} f); rw [View.set_whole]

theorem read_whole (r : Ref sig .tc) (f : r.ty.Contents (Elt F)) : (Memref.whole r).view.read (Elt F) f = f := View.read_whole _ _

def bodyPre' (c : Dev nD) : sProp 𝕄 :=
  iprop(Φ₀ m c ∗ (dats m ρ 0 c).owesAt () t₀.castSucc
    ∗ (∃ d, owns (c : Thread nD τ) aM0 fullShare ((dats m ρ 0 c).before (0 : Fin 8) t₀ d))
    ∗ (∃ d, owns (c : Thread nD τ) aM1 fullShare ((dats m ρ 0 c).before (1 : Fin 8) t₀ d))
    ∗ (∃ d, owns (c : Thread nD τ) aM2 fullShare ((dats m ρ 0 c).before (2 : Fin 8) t₀ d))
    ∗ (∃ d, owns (c : Thread nD τ) aM3 fullShare ((dats m ρ 0 c).before (3 : Fin 8) t₀ d))
    ∗ (∃ d, owns (c : Thread nD τ) aM4 fullShare ((dats m ρ 0 c).before (4 : Fin 8) t₀ d))
    ∗ (∃ d, owns (c : Thread nD τ) aM5 fullShare ((dats m ρ 0 c).before (5 : Fin 8) t₀ d))
    ∗ (∃ d, owns (c : Thread nD τ) aM6 fullShare ((dats m ρ 0 c).before (6 : Fin 8) t₀ d))
    ∗ (∃ d, owns (c : Thread nD τ) aM7 fullShare ((dats m ρ 0 c).before (7 : Fin 8) t₀ d)))

def bodyPost (c : Dev nD) : sProp 𝕄 :=
  iprop(Φ₁ m c ∗ (dats m ρ 0 c).owesAt () t₀.succ
    ∗ owns (c : Thread nD τ) aM0 fullShare (stg0 m c)
    ∗ owns (c : Thread nD τ) aM1 fullShare (stg1 m c)
    ∗ owns (c : Thread nD τ) aM2 fullShare (stg2 m c)
    ∗ owns (c : Thread nD τ) aM3 fullShare (stg3 m c)
    ∗ owns (c : Thread nD τ) aM4 fullShare (stg4 m c)
    ∗ owns (c : Thread nD τ) aM5 fullShare (stg5 m c)
    ∗ owns (c : Thread nD τ) aM6 fullShare (stg6 m c)
    ∗ owns (c : Thread nD τ) aM7 fullShare (stg7 m c))

theorem body_obligation (c : Dev nD) : BodyObligation (dats (F := F) m ρ 0 c) (defs₀ (F := F)) 𝒱₀ () Set.univ := fun t => by
  rw [fin_N t]
  rw [bigSep_W0, bigSep_W0]
  show bodyPre' m ρ c ⊢ wp frame (wpE (defs₀ (F := F)) 𝒱₀ c none) Set.univ
    (cc0_body aM0 (Memref.isWhole_whole _) aM1 (Memref.isWhole_whole _) aM2 (Memref.isWhole_whole _) aM3 (Memref.isWhole_whole _) aM4 (Memref.isWhole_whole _) aM5 (Memref.isWhole_whole _) aM6 (Memref.isWhole_whole _) aM7 (Memref.isWhole_whole _) yM (Memref.isWhole_whole _) sM0 (Memref.isWhole_whole _) rM0 (Memref.isWhole_whole _) sM1 (Memref.isWhole_whole _) rM1 (Memref.isWhole_whole _) sM2 (Memref.isWhole_whole _) rM2 (Memref.isWhole_whole _) oM (Memref.isWhole_whole _) vM (Memref.isWhole_whole _) cc0_scratch8 cc0_scratch9 cc0_scratch10) (fun _ => bodyPost m ρ c)
  unfold bodyPre' Φ₀ start scratches owns
  iintro ⟨⟨⟨⟨%K, Hg⟩, HcB, HcR0, HcR1, HcR2, Hlev, HV⟩, ⟨%g0, G0⟩, ⟨%g1, G1⟩, ⟨%g2, G2⟩, ⟨%g3, G3⟩, ⟨%g4, G4⟩, ⟨%g5, G5⟩, ⟨%g6, G6⟩, ⟨%g7, G7⟩⟩, Ho,
    ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩⟩
  have hx0 : f0 = stg0 m c := by
    rw [← read_whole cc0_stg0_0 f0, hf0]; unfold Dat.before; rw [if_pos (fetch0_0 t₀)]; rfl
  subst hx0
  have hx1 : f1 = stg1 m c := by
    rw [← read_whole cc0_stg1_0 f1, hf1]; unfold Dat.before; rw [if_pos (fetch0_1 t₀)]; rfl
  subst hx1
  have hx2 : f2 = stg2 m c := by
    rw [← read_whole cc0_stg2_0 f2, hf2]; unfold Dat.before; rw [if_pos (fetch0_2 t₀)]; rfl
  subst hx2
  have hx3 : f3 = stg3 m c := by
    rw [← read_whole cc0_stg3_0 f3, hf3]; unfold Dat.before; rw [if_pos (fetch0_3 t₀)]; rfl
  subst hx3
  have hx4 : f4 = stg4 m c := by
    rw [← read_whole cc0_stg4_0 f4, hf4]; unfold Dat.before; rw [if_pos (fetch0_4 t₀)]; rfl
  subst hx4
  have hx5 : f5 = stg5 m c := by
    rw [← read_whole cc0_stg5_0 f5, hf5]; unfold Dat.before; rw [if_pos (fetch0_5 t₀)]; rfl
  subst hx5
  have hx6 : f6 = stg6 m c := by
    rw [← read_whole cc0_stg6_0 f6, hf6]; unfold Dat.before; rw [if_pos (fetch0_6 t₀)]; rfl
  subst hx6
  have hx7 : f7 = stg7 m c := by
    rw [← read_whole cc0_stg7_0 f7, hf7]; unfold Dat.before; rw [if_pos (fetch0_7 t₀)]; rfl
  subst hx7
  unfold Dat.owesAt Pipeline.owesWithin
  icases Ho with ⟨%W, %hW, HO⟩
  rw [show (dats m ρ 0 c).owed t₀.castSucc = O₀ c from rfl]
  iapply (sound_body m K c (fun _ => bodyPost m ρ c) W g0 g1 g2 g3 g4 g5 g6 g7)
  iframe ∗
  isplitl [G0]; · iapply (Entails.of_eq (pts_whole cc0_scratch0 c g0)); iexact G0
  isplitl [G1]; · iapply (Entails.of_eq (pts_whole cc0_scratch1 c g1)); iexact G1
  isplitl [G2]; · iapply (Entails.of_eq (pts_whole cc0_scratch2 c g2)); iexact G2
  isplitl [G3]; · iapply (Entails.of_eq (pts_whole cc0_scratch3 c g3)); iexact G3
  isplitl [G4]; · iapply (Entails.of_eq (pts_whole cc0_scratch4 c g4)); iexact G4
  isplitl [G5]; · iapply (Entails.of_eq (pts_whole cc0_scratch5 c g5)); iexact G5
  isplitl [G6]; · iapply (Entails.of_eq (pts_whole cc0_scratch6 c g6)); iexact G6
  isplitl [G7]; · iapply (Entails.of_eq (pts_whole cc0_scratch7 c g7)); iexact G7
  iintro Hpost
  unfold cleanPost bodyPost Φ₁ scratches owns
  icases Hpost with ⟨⟨%q0, Q0⟩, ⟨%q1, Q1⟩, ⟨%q2, Q2⟩, ⟨%q3, Q3⟩, ⟨%q4, Q4⟩, ⟨%q5, Q5⟩, ⟨%q6, Q6⟩, ⟨%q7, Q7⟩, Z0, Z1, Z2, Z3, Z4, Z5, Z6, Z7, QV, ⟨%W', QO⟩, P0, P1, P2, P3, P4, P5, P6, P7⟩
  isplitl [Q0 Q1 Q2 Q3 Q4 Q5 Q6 Q7 Z0 Z1 Z2 Z3 Z4 Z5 Z6 Z7 QV]
  · isplitl [Q0 Q1 Q2 Q3 Q4 Q5 Q6 Q7]
    · isplitl [Q0]; · iexists q0; iapply (Entails.of_eq (pts_whole cc0_scratch0 c q0).symm); iexact Q0
      isplitl [Q1]; · iexists q1; iapply (Entails.of_eq (pts_whole cc0_scratch1 c q1).symm); iexact Q1
      isplitl [Q2]; · iexists q2; iapply (Entails.of_eq (pts_whole cc0_scratch2 c q2).symm); iexact Q2
      isplitl [Q3]; · iexists q3; iapply (Entails.of_eq (pts_whole cc0_scratch3 c q3).symm); iexact Q3
      isplitl [Q4]; · iexists q4; iapply (Entails.of_eq (pts_whole cc0_scratch4 c q4).symm); iexact Q4
      isplitl [Q5]; · iexists q5; iapply (Entails.of_eq (pts_whole cc0_scratch5 c q5).symm); iexact Q5
      isplitl [Q6]; · iexists q6; iapply (Entails.of_eq (pts_whole cc0_scratch6 c q6).symm); iexact Q6
      iexists q7; iapply (Entails.of_eq (pts_whole cc0_scratch7 c q7).symm); iexact Q7
    iframe
  isplitl [QO]
  · unfold Dat.owesAt Pipeline.owesWithin
    iexists W'
    isplitr
    · ipureintro; exact fun _ _ => Or.inl trivial
    iexact QO
  isplitl [P0]
  · iexists (stg0 m c)
    isplitr
    · ipureintro; exact read_whole cc0_stg0_0 _
    iexact P0
  isplitl [P1]
  · iexists (stg1 m c)
    isplitr
    · ipureintro; exact read_whole cc0_stg1_0 _
    iexact P1
  isplitl [P2]
  · iexists (stg2 m c)
    isplitr
    · ipureintro; exact read_whole cc0_stg2_0 _
    iexact P2
  isplitl [P3]
  · iexists (stg3 m c)
    isplitr
    · ipureintro; exact read_whole cc0_stg3_0 _
    iexact P3
  isplitl [P4]
  · iexists (stg4 m c)
    isplitr
    · ipureintro; exact read_whole cc0_stg4_0 _
    iexact P4
  isplitl [P5]
  · iexists (stg5 m c)
    isplitr
    · ipureintro; exact read_whole cc0_stg5_0 _
    iexact P5
  isplitl [P6]
  · iexists (stg6 m c)
    isplitr
    · ipureintro; exact read_whole cc0_stg6_0 _
    iexact P6
  iexists (stg7 m c)
  isplitr
  · ipureintro; exact read_whole cc0_stg7_0 _
  iexact P7

/-- info: 'Cert.KernelIdeal.Hand.body_obligation' depends on axioms: [propext, Classical.choice, Quot.sound] -/
#guard_msgs in #print axioms body_obligation

end Cert.KernelIdeal.Hand

end
-- ==== Proof.Spec.lean ====
import Idealize.ShloMosaic.PureOps.Ideal

noncomputable section

namespace Cert.Spec

open Idealize.ShloMosaic

def scale : EReal := Ideal.ofBits .f32 0x3DD105EC#32

def oneW : EReal := Ideal.ofBits .f32 0x3F800000#32

def zeroW : EReal := Ideal.ofBits .f32 0x00000000#32

def negInfW : EReal := Ideal.ofBits .f32 0xFF800000#32

def col64 (h : Fin 16) (d : Fin 64) : Fin 1024 := ⟨64 * h.val + d.val, by omega⟩

def col32 (h : Fin 16) (e : Fin 32) : Fin 512 := ⟨32 * h.val + e.val, by omega⟩

def headOf (j : Fin 1024) : Fin 16 := ⟨j.val / 64, by omega⟩
def inHead (j : Fin 1024) : Fin 64 := ⟨j.val % 64, Nat.mod_lt _ (by decide)⟩

def proj {J N : Nat} (x : Fin 256 → Fin J → EReal) (W : Fin J → Fin N → EReal) (s : Fin 256) (n : Fin N) : EReal :=
  ∑ j : Fin J, x s j * W j n

section Ref

variable (X : Fin 2 → Fin 256 → Fin 1024 → EReal) (Wd : Fin 1024 → Fin 128 → EReal)
  (Wuk Wuv : Fin 128 → Fin 1024 → EReal) (Wq : Fin 1024 → Fin 1024 → EReal) (Wqr : Fin 1024 → Fin 512 → EReal)
  (Wkr : Fin 1024 → Fin 32 → EReal) (Wo : Fin 1024 → Fin 1024 → EReal)

def refC (b : Fin 2) : Fin 256 → Fin 128 → EReal := proj (X b) Wd
def refK (b : Fin 2) : Fin 256 → Fin 1024 → EReal := proj (refC X Wd b) Wuk
def refV (b : Fin 2) : Fin 256 → Fin 1024 → EReal := proj (refC X Wd b) Wuv
def refQ (b : Fin 2) : Fin 256 → Fin 1024 → EReal := proj (X b) Wq
def refQr (b : Fin 2) : Fin 256 → Fin 512 → EReal := proj (X b) Wqr
def refKr (b : Fin 2) : Fin 256 → Fin 32 → EReal := proj (X b) Wkr

def refScore (b : Fin 2) (h : Fin 16) (s t : Fin 256) : EReal :=
  ((∑ d : Fin 64, refQ X Wq b s (col64 h d) * refK X Wd Wuk b t (col64 h d))
    + (∑ e : Fin 32, refQr X Wqr b s (col32 h e) * refKr X Wkr b t e)) * scale

def refMax (b : Fin 2) (h : Fin 16) (s : Fin 256) : EReal :=
  max negInfW (Finset.univ.sup fun t : Fin 256 => refScore X Wd Wuk Wq Wqr Wkr b h s t)

def refExp (b : Fin 2) (h : Fin 16) (s t : Fin 256) : EReal :=
  Ideal.exp (refScore X Wd Wuk Wq Wqr Wkr b h s t - refMax X Wd Wuk Wq Wqr Wkr b h s)

def refSum (b : Fin 2) (h : Fin 16) (s : Fin 256) : EReal :=
  zeroW + ∑ t : Fin 256, refExp X Wd Wuk Wq Wqr Wkr b h s t

def refP (b : Fin 2) (h : Fin 16) (s t : Fin 256) : EReal :=
  Ideal.div (refExp X Wd Wuk Wq Wqr Wkr b h s t) (refSum X Wd Wuk Wq Wqr Wkr b h s)

def refHead (b : Fin 2) (h : Fin 16) (s : Fin 256) (d : Fin 64) : EReal :=
  ∑ t : Fin 256, refV X Wd Wuv b t (col64 h d) * refP X Wd Wuk Wq Wqr Wkr b h s t

def refO (b : Fin 2) (s : Fin 256) (j : Fin 1024) : EReal :=
  refHead X Wd Wuk Wuv Wq Wqr Wkr b (headOf j) s (inHead j)

def refOut (b : Fin 2) (s : Fin 256) (n : Fin 1024) : EReal :=
  ∑ j : Fin 1024, refO X Wd Wuk Wuv Wq Wqr Wkr b s j * Wo j n

end Ref

section Ker

variable (X : Fin 2 → Fin 256 → Fin 1024 → EReal)
  (Wdm Wdn : Fin 1024 → Fin 64 → EReal)
  (Wukm Wukn Wuvm Wuvn : Fin 64 → Fin 1024 → EReal)
  (Wq : Fin 1024 → Fin 1024 → EReal) (Wqr : Fin 1024 → Fin 512 → EReal)
  (Wkr : Fin 1024 → Fin 32 → EReal) (Wo : Fin 1024 → Fin 1024 → EReal)

def kerC (Wdh : Fin 1024 → Fin 64 → EReal) (b : Fin 2) : Fin 256 → Fin 64 → EReal := proj (X b) Wdh

def kerK (b : Fin 2) (t : Fin 256) (n : Fin 1024) : EReal :=
  proj (kerC X Wdm b) Wukm t n + proj (kerC X Wdn b) Wukn t n
def kerV (b : Fin 2) (t : Fin 256) (n : Fin 1024) : EReal :=
  proj (kerC X Wdm b) Wuvm t n + proj (kerC X Wdn b) Wuvn t n

def kerQ (b : Fin 2) (s : Fin 256) (n : Fin 1024) : EReal := proj (X b) Wq s n * scale
def kerQr (b : Fin 2) (s : Fin 256) (n : Fin 512) : EReal := proj (X b) Wqr s n * scale
def kerKr (b : Fin 2) : Fin 256 → Fin 32 → EReal := proj (X b) Wkr

def kerScore (b : Fin 2) (h : Fin 16) (s t : Fin 256) : EReal :=
  (∑ d : Fin 64, kerQ X Wq b s (col64 h d) * kerK X Wdm Wdn Wukm Wukn b t (col64 h d))
    + (∑ e : Fin 32, kerQr X Wqr b s (col32 h e) * kerKr X Wkr b t e)

def kerExp (b : Fin 2) (h : Fin 16) (s t : Fin 256) : EReal :=
  Ideal.exp (kerScore X Wdm Wdn Wukm Wukn Wq Wqr Wkr b h s t)

def kerSum (b : Fin 2) (h : Fin 16) (s : Fin 256) : EReal :=
  ∑ t : Fin 256, kerExp X Wdm Wdn Wukm Wukn Wq Wqr Wkr b h s t * oneW

def kerHead (b : Fin 2) (h : Fin 16) (s : Fin 256) (d : Fin 64) : EReal :=
  (∑ t : Fin 256, kerExp X Wdm Wdn Wukm Wukn Wq Wqr Wkr b h s t * kerV X Wdm Wdn Wuvm Wuvn b t (col64 h d))
    * Ideal.div oneW (kerSum X Wdm Wdn Wukm Wukn Wq Wqr Wkr b h s)

def kerO (b : Fin 2) (s : Fin 256) (j : Fin 1024) : EReal :=
  kerHead X Wdm Wdn Wukm Wukn Wuvm Wuvn Wq Wqr Wkr b (headOf j) s (inHead j)

def kerOut (b : Fin 2) (s : Fin 256) (n : Fin 1024) : EReal :=
  ∑ j : Fin 1024, kerO X Wdm Wdn Wukm Wukn Wuvm Wuvn Wq Wqr Wkr b s j * Wo j n

end Ker

def colHalf (W : Fin 1024 → Fin 128 → EReal) (y : Fin 2) : Fin 1024 → Fin 64 → EReal :=
  fun j k => W j ⟨64 * y.val + k.val, by omega⟩

def rowHalf (W : Fin 128 → Fin 1024 → EReal) (y : Fin 2) : Fin 64 → Fin 1024 → EReal :=
  fun k n => W ⟨64 * y.val + k.val, by omega⟩ n

def other (y : Fin 2) : Fin 2 := ⟨1 - y.val, by omega⟩

def IsReal (x : EReal) : Prop := ∃ r : ℝ, x = (r : EReal)

end Cert.Spec

end
-- ==== Proof.Arr.lean ====
import Idealize.ShloMosaic.Lib.ValueIdx
import Idealize.ShloMosaic.PureOps.Ideal

noncomputable section

namespace Cert.Arr

open Idealize.ShloMosaic Idealize.ShloMosaic.ValueIdx

def f2 {A B : Nat} (v : (⟨2, ![A, B]⟩ : Shape).Idx → EReal) : Fin A → Fin B → EReal := fun a b => v (ix2 a b)

def f3 {A B C : Nat} (v : (⟨3, ![A, B, C]⟩ : Shape).Idx → EReal) : Fin A → Fin B → Fin C → EReal := fun a b c => v (ix3 a b c)

theorem f2_apply {A B : Nat} (v : (⟨2, ![A, B]⟩ : Shape).Idx → EReal) (a : Fin A) (b : Fin B) : f2 v a b = v (ix2 a b) := rfl
theorem f3_apply {A B C : Nat} (v : (⟨3, ![A, B, C]⟩ : Shape).Idx → EReal) (a : Fin A) (b : Fin B) (c : Fin C) :
    f3 v a b c = v (ix3 a b c) := rfl

theorem idx_ext2 {A B : Nat} {i j : (⟨2, ![A, B]⟩ : Shape).Idx} (h0 : (i 0).val = (j 0).val) (h1 : (i 1).val = (j 1).val) : i = j :=
  funext fun a => Fin.ext (by match a with | ⟨0, _⟩ => exact h0 | ⟨1, _⟩ => exact h1)
theorem idx_ext3 {A B C : Nat} {i j : (⟨3, ![A, B, C]⟩ : Shape).Idx} (h0 : (i 0).val = (j 0).val) (h1 : (i 1).val = (j 1).val)
    (h2 : (i 2).val = (j 2).val) : i = j :=
  funext fun a => Fin.ext (by match a with | ⟨0, _⟩ => exact h0 | ⟨1, _⟩ => exact h1 | ⟨2, _⟩ => exact h2)
theorem idx_ext4 {A B C D : Nat} {i j : (⟨4, ![A, B, C, D]⟩ : Shape).Idx} (h0 : (i 0).val = (j 0).val) (h1 : (i 1).val = (j 1).val)
    (h2 : (i 2).val = (j 2).val) (h3 : (i 3).val = (j 3).val) : i = j :=
  funext fun a => Fin.ext (by match a with | ⟨0, _⟩ => exact h0 | ⟨1, _⟩ => exact h1 | ⟨2, _⟩ => exact h2 | ⟨3, _⟩ => exact h3)

end Cert.Arr

end
-- ==== Proof.LibMatmul.lean ====
import Idealize.ShloMosaic.Lib.ValueIdx
import Idealize.ShloMosaic.PureOps.Ideal
import Idealize.ShloMosaic.PureOps.Ideal.Laws

noncomputable section

namespace Cert.LibMatmul

open Idealize.ShloMosaic Idealize.ShloMosaic.ValueIdx

variable {M K N : Nat} {φ₁ φ₂ : FTy}

theorem plain_lhs0 (i : (⟨2, ![M, N]⟩ : Shape).Idx) (q : (DotDims.plain M K N).contr.Idx) : ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

theorem plain_rhs1 (i : (⟨2, ![M, N]⟩ : Shape).Idx) (q : (DotDims.plain M K N).contr.Idx) : ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- Over the extended reals a rows-by-columns matrix product into the zero accumulator is, entry by entry, the sum over the
    contracted axis, `(A·B)[s,n] = ∑ k, A[s,k]·B[k,n]`, at any extents. -/
theorem plain_apply (lhs : FVec Ideal ⟨2, ![M, K]⟩ φ₁) (rhs : FVec Ideal ⟨2, ![K, N]⟩ φ₂) (s : Fin M) (n : Fin N) :
    matmul (DotDims.plain M K N) none lhs rhs (constant ⟨2, ![M, N]⟩ .f32 0x00000000#32) (ix2 s n) = ∑ k : Fin K, lhs (ix2 s k) * rhs (ix2 k n) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 s n) ((contrEquiv1 (DotDims.plain M K N) K rfl rfl).symm k) = ix2 s k := funext fun a => Fin.ext (by
    match a with
    | ⟨0, _⟩ => exact plain_lhs0 _ _
    | ⟨1, _⟩ => exact ((DotDims.plain M K N).lhsIdx_val_of_single rfl _ _).trans hk)
  have er : (DotDims.plain M K N).rhsIdx (ix2 s n) ((contrEquiv1 (DotDims.plain M K N) K rfl rfl).symm k) = ix2 k n := funext fun a => Fin.ext (by
    match a with
    | ⟨0, _⟩ => exact ((DotDims.plain M K N).rhsIdx_val_of_single rfl _ _).trans hk
    | ⟨1, _⟩ => exact plain_rhs1 _ _)
  rw [el, er]

theorem transposedRhs_lhs0 (i : (⟨2, ![M, N]⟩ : Shape).Idx) (q : (DotDims.transposedRhs M K N).contr.Idx) : ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

theorem transposedRhs_rhs0 (i : (⟨2, ![M, N]⟩ : Shape).Idx) (q : (DotDims.transposedRhs M K N).contr.Idx) : ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The same with the right operand contracted on its last axis: `(A·Bᵀ)[s,n] = ∑ k, A[s,k]·B[n,k]`. -/
theorem transposedRhs_apply (lhs : FVec Ideal ⟨2, ![M, K]⟩ φ₁) (rhs : FVec Ideal ⟨2, ![N, K]⟩ φ₂) (s : Fin M) (n : Fin N) :
    matmul (DotDims.transposedRhs M K N) none lhs rhs (constant ⟨2, ![M, N]⟩ .f32 0x00000000#32) (ix2 s n) = ∑ k : Fin K, lhs (ix2 s k) * rhs (ix2 n k) := by
  simp only [matmul]
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 s n) ((contrEquiv1 (DotDims.transposedRhs M K N) K rfl rfl).symm k) = ix2 s k := funext fun a => Fin.ext (by
    match a with
    | ⟨0, _⟩ => exact transposedRhs_lhs0 _ _
    | ⟨1, _⟩ => exact ((DotDims.transposedRhs M K N).lhsIdx_val_of_single rfl _ _).trans hk)
  have er : (DotDims.transposedRhs M K N).rhsIdx (ix2 s n) ((contrEquiv1 (DotDims.transposedRhs M K N) K rfl rfl).symm k) = ix2 n k := funext fun a => Fin.ext (by
    match a with
    | ⟨1, _⟩ => exact ((DotDims.transposedRhs M K N).rhsIdx_val_of_single rfl _ _).trans hk
    | ⟨0, _⟩ => exact transposedRhs_rhs0 _ _)
  rw [el, er]

end Cert.LibMatmul

end
-- ==== Proof.KHeadFn.lean ====
import proofs.«900965_g7700000000000966_dist_mla_v7x_xyz2x2x2_y_b2_s256_d1024_dc64_f32_1_alg».proof.Proof.KTerms
import proofs.«900965_g7700000000000966_dist_mla_v7x_xyz2x2x2_y_b2_s256_d1024_dc64_f32_1_alg».proof.Proof.Spec
import proofs.«900965_g7700000000000966_dist_mla_v7x_xyz2x2x2_y_b2_s256_d1024_dc64_f32_1_alg».proof.Proof.Arr
import proofs.«900965_g7700000000000966_dist_mla_v7x_xyz2x2x2_y_b2_s256_d1024_dc64_f32_1_alg».proof.Proof.LibMatmul
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KVal

open Cert.KernelIdeal Cert.KernelIdeal.Gen Cert.KernelIdeal.Hand Cert.Spec Cert.Arr
open Idealize.ShloMosaic Idealize.ShloMosaic.ValueIdx

def wgt (h : Fin 16) (kr : FVec Ideal S256x32 .f32) (q : FVec Ideal S256x1024 .f32) (qr : FVec Ideal S256x512 .f32)
    (k : FVec Ideal S256x1024 .f32) (s t : Fin 256) : EReal :=
  Ideal.exp ((∑ dd : Fin 64, q (ix2 s (col64 h dd)) * k (ix2 t (col64 h dd))) + (∑ e : Fin 32, qr (ix2 s (col32 h e)) * kr (ix2 t e)))

theorem mm_qk (a b : FVec Ideal S256x64 .f32) (r c : Fin 256) :
    matmul dot_S256x64_S256x64_S256x256_1_1_0_0_n_n none a b (constant (F := Ideal) S256x256 .f32 0x00000000#32) (ix2 r c)
      = ∑ dd : Fin 64, a (ix2 r dd) * b (ix2 c dd) :=
  Cert.LibMatmul.transposedRhs_apply a b r c

theorem mm_qrkr (a b : FVec Ideal S256x32 .f32) (r c : Fin 256) :
    matmul dot_S256x32_S256x32_S256x256_1_1_0_0_n_n none a b (constant (F := Ideal) S256x256 .f32 0x00000000#32) (ix2 r c)
      = ∑ e : Fin 32, a (ix2 r e) * b (ix2 c e) :=
  Cert.LibMatmul.transposedRhs_apply a b r c

theorem mm_rs (p : FVec Ideal S256x256 .f32) (on : FVec Ideal S256x1 .f32) (r : Fin 256) (c : Fin 1) :
    matmul dot_S256x256_S256x1_S256x1_1_0_0_1_n_n none p on (constant (F := Ideal) S256x1 .f32 0x00000000#32) (ix2 r c)
      = ∑ t : Fin 256, p (ix2 r t) * on (ix2 t c) :=
  Cert.LibMatmul.plain_apply p on r c

theorem mm_pv (p : FVec Ideal S256x256 .f32) (vh : FVec Ideal S256x64 .f32) (r : Fin 256) (c : Fin 64) :
    matmul dot_S256x256_S256x64_S256x64_1_0_0_1_n_n none p vh (constant (F := Ideal) S256x64 .f32 0x00000000#32) (ix2 r c)
      = ∑ t : Fin 256, p (ix2 r t) * vh (ix2 t c) :=
  Cert.LibMatmul.plain_apply p vh r c

theorem slice64_apply (x : FVec Ideal S256x1024 .f32) (h : Fin 16) (r : Fin 256) (dd : Fin 64) :
    extractStridedSlice S256x64 ![0, 64 * h.val] x (slices64 h) (ix2 r dd) = x (ix2 r (col64 h dd)) :=
  extractStridedSlice_apply _ x (slices64 h) (ix2 r dd) (ix2 r (col64 h dd)) (fun a => match a with
    | ⟨0, _⟩ => (Nat.zero_add _).symm
    | ⟨1, _⟩ => rfl)

theorem slice32_apply (x : FVec Ideal S256x512 .f32) (h : Fin 16) (r : Fin 256) (e : Fin 32) :
    extractStridedSlice S256x32 ![0, 32 * h.val] x (slices32 h) (ix2 r e) = x (ix2 r (col32 h e)) :=
  extractStridedSlice_apply _ x (slices32 h) (ix2 r e) (ix2 r (col32 h e)) (fun a => match a with
    | ⟨0, _⟩ => (Nat.zero_add _).symm
    | ⟨1, _⟩ => rfl)

theorem bcol_apply (c : FVec Ideal S256x1 .f32) (r : Fin 256) (d : Fin 64) :
    broadcastTo S256x64 c Facts₀.broadcasts_S256x1_S256x64 (ix2 r d) = c (ix2 r (0 : Fin 1)) :=
  broadcastTo_apply c Facts₀.broadcasts_S256x1_S256x64 (ix2 r d) (ix2 r (0 : Fin 1)) (fun a => match a with
    | ⟨0, _⟩ => by show r.val = if (256 : Nat) = 1 then 0 else r.val; rw [if_neg (by decide)]
    | ⟨1, _⟩ => by show 0 = if (1 : Nat) = 1 then 0 else d.val; rw [if_pos rfl])

theorem p_apply (h : Fin 16) (kr : FVec Ideal S256x32 .f32) (q : FVec Ideal S256x1024 .f32) (qr : FVec Ideal S256x512 .f32)
    (k : FVec Ideal S256x1024 .f32) (s t : Fin 256) :
    exp (addf
        (matmul dot_S256x64_S256x64_S256x256_1_1_0_0_n_n none (extractStridedSlice S256x64 ![0, 64 * h.val] q (slices64 h))
          (extractStridedSlice S256x64 ![0, 64 * h.val] k (slices64 h)) (constant (F := Ideal) S256x256 .f32 0x00000000#32))
        (matmul dot_S256x32_S256x32_S256x256_1_1_0_0_n_n none (extractStridedSlice S256x32 ![0, 32 * h.val] qr (slices32 h)) kr
          (constant (F := Ideal) S256x256 .f32 0x00000000#32))) (ix2 s t)
      = wgt h kr q qr k s t := by
  show Ideal.exp (matmul dot_S256x64_S256x64_S256x256_1_1_0_0_n_n none (extractStridedSlice S256x64 ![0, 64 * h.val] q (slices64 h))
          (extractStridedSlice S256x64 ![0, 64 * h.val] k (slices64 h)) (constant (F := Ideal) S256x256 .f32 0x00000000#32) (ix2 s t)
        + matmul dot_S256x32_S256x32_S256x256_1_1_0_0_n_n none (extractStridedSlice S256x32 ![0, 32 * h.val] qr (slices32 h)) kr
          (constant (F := Ideal) S256x256 .f32 0x00000000#32) (ix2 s t)) = _
  rw [mm_qk, mm_qrkr]
  unfold wgt
  simp only [slice64_apply, slice32_apply]

theorem headFn_apply (h : Fin 16) (kr : FVec Ideal S256x32 .f32) (on : FVec Ideal S256x1 .f32) (q : FVec Ideal S256x1024 .f32)
    (qr : FVec Ideal S256x512 .f32) (k v : FVec Ideal S256x1024 .f32) (s : Fin 256) (d : Fin 64) :
    headFn (F := Ideal) h kr on q qr k v (ix2 s d)
      = (∑ t : Fin 256, wgt h kr q qr k s t * v (ix2 t (col64 h d)))
          * Ideal.div oneW (∑ t : Fin 256, wgt h kr q qr k s t * on (ix2 t (0 : Fin 1))) := by
  unfold headFn
  simp only [shapeCast_self]
  rw [mulf_apply, bcol_apply, divf_apply, mm_pv, mm_rs]
  simp only [p_apply, slice64_apply]
  rfl

end Cert.KVal

end
-- ==== Proof.KPre.lean ====
import proofs.«900965_g7700000000000966_dist_mla_v7x_xyz2x2x2_y_b2_s256_d1024_dc64_f32_1_alg».proof.Proof.KTerms
import proofs.«900965_g7700000000000966_dist_mla_v7x_xyz2x2x2_y_b2_s256_d1024_dc64_f32_1_alg».proof.Proof.Spec
import proofs.«900965_g7700000000000966_dist_mla_v7x_xyz2x2x2_y_b2_s256_d1024_dc64_f32_1_alg».proof.Proof.Arr
import proofs.«900965_g7700000000000966_dist_mla_v7x_xyz2x2x2_y_b2_s256_d1024_dc64_f32_1_alg».proof.Proof.LibMatmul
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KVal

open Cert.KernelIdeal Cert.KernelIdeal.Gen Cert.KernelIdeal.Hand Cert.Spec Cert.Arr
open Idealize.ShloMosaic Idealize.ShloMosaic.ValueIdx

def Xof (x0 x1 : Vec Ideal S1x256x1024 .f32) : Fin 2 → Fin 256 → Fin 1024 → EReal :=
  fun b s j => if b = 0 then x0 (ix3 (0 : Fin 1) s j) else x1 (ix3 (0 : Fin 1) s j)

theorem matmul_256x1024x64_apply {φ₁ φ₂ : FTy} (lhs : FVec Ideal S256x1024 φ₁) (rhs : FVec Ideal S1024x64 φ₂) (s : Fin 256) (n : Fin 64) :
    matmul dot_S256x1024_S1024x64_S256x64_1_0_0_1_n_n none lhs rhs (constant S256x64 .f32 0x00000000#32) (ix2 s n) = ∑ k : Fin 1024, lhs (ix2 s k) * rhs (ix2 k n) :=
  Cert.LibMatmul.plain_apply lhs rhs s n

theorem matmul_256x1024x1024_apply {φ₁ φ₂ : FTy} (lhs : FVec Ideal S256x1024 φ₁) (rhs : FVec Ideal S1024x1024 φ₂) (s : Fin 256) (n : Fin 1024) :
    matmul dot_S256x1024_S1024x1024_S256x1024_1_0_0_1_n_n none lhs rhs (constant S256x1024 .f32 0x00000000#32) (ix2 s n) = ∑ k : Fin 1024, lhs (ix2 s k) * rhs (ix2 k n) :=
  Cert.LibMatmul.plain_apply lhs rhs s n

theorem matmul_256x1024x512_apply {φ₁ φ₂ : FTy} (lhs : FVec Ideal S256x1024 φ₁) (rhs : FVec Ideal S1024x512 φ₂) (s : Fin 256) (n : Fin 512) :
    matmul dot_S256x1024_S1024x512_S256x512_1_0_0_1_n_n none lhs rhs (constant S256x512 .f32 0x00000000#32) (ix2 s n) = ∑ k : Fin 1024, lhs (ix2 s k) * rhs (ix2 k n) :=
  Cert.LibMatmul.plain_apply lhs rhs s n

theorem matmul_256x1024x32_apply {φ₁ φ₂ : FTy} (lhs : FVec Ideal S256x1024 φ₁) (rhs : FVec Ideal S1024x32 φ₂) (s : Fin 256) (n : Fin 32) :
    matmul dot_S256x1024_S1024x32_S256x32_1_0_0_1_n_n none lhs rhs (constant S256x32 .f32 0x00000000#32) (ix2 s n) = ∑ k : Fin 1024, lhs (ix2 s k) * rhs (ix2 k n) :=
  Cert.LibMatmul.plain_apply lhs rhs s n

theorem matmul_256x64x1024_apply {φ₁ φ₂ : FTy} (lhs : FVec Ideal S256x64 φ₁) (rhs : FVec Ideal S64x1024 φ₂) (s : Fin 256) (n : Fin 1024) :
    matmul dot_S256x64_S64x1024_S256x1024_1_0_0_1_n_n none lhs rhs (constant S256x1024 .f32 0x00000000#32) (ix2 s n) = ∑ k : Fin 64, lhs (ix2 s k) * rhs (ix2 k n) :=
  Cert.LibMatmul.plain_apply lhs rhs s n

section
variable (x0 x1 : Vec Ideal S1x256x1024 .f32) (wd wdN : Vec Ideal S1024x64 .f32) (wuk wuv wukN wuvN : Vec Ideal S64x1024 .f32)
  (wq : Vec Ideal S1024x1024 .f32) (wqr : Vec Ideal S1024x512 .f32) (wkr : Vec Ideal S1024x32 .f32)

theorem sum_x0 {N : Nat} (W : (⟨2, ![1024, N]⟩ : Shape).Idx → EReal) (s : Fin 256) (n : Fin N) :
    ∑ k : Fin 1024, shapeCast S256x1024 x0 shapeCasts_S1x256x1024_S256x1024 (ix2 s k) * W (ix2 k n)
      = proj (Xof x0 x1 0) (f2 W) s n := by
  unfold proj
  refine Finset.sum_congr rfl fun k _ => ?_
  rw [shapeCast_1ab_ab_apply]
  rfl

theorem sum_x1 {N : Nat} (W : (⟨2, ![1024, N]⟩ : Shape).Idx → EReal) (s : Fin 256) (n : Fin N) :
    ∑ k : Fin 1024, shapeCast S256x1024 x1 shapeCasts_S1x256x1024_S256x1024 (ix2 s k) * W (ix2 k n)
      = proj (Xof x0 x1 1) (f2 W) s n := by
  unfold proj
  refine Finset.sum_congr rfl fun k _ => ?_
  rw [shapeCast_1ab_ab_apply]
  rfl

theorem wukS_apply (w : Vec Ideal S64x1024 .f32) (k : Fin 64) (n : Fin 1024) : wukS (F := Ideal) w (ix2 k n) = f2 w k n := by
  unfold wukS k0_pay1
  rw [shapeCast_self, shapeCast_self]
  rfl

theorem wuvS_apply (w : Vec Ideal S64x1024 .f32) (k : Fin 64) (n : Fin 1024) : wuvS (F := Ideal) w (ix2 k n) = f2 w k n := by
  unfold wuvS k0_pay2
  rw [shapeCast_self, shapeCast_self]
  rfl

theorem cs0_apply (w : Vec Ideal S1024x64 .f32) (t : Fin 256) (k : Fin 64) :
    shapeCast S256x64 (cs0 (F := Ideal) x0 w) shapeCasts_S1x256x64_S256x64 (ix2 t k) = kerC (Xof x0 x1) (f2 w) 0 t k := by
  rw [shapeCast_1ab_ab_apply]
  unfold cs0 k0_pay3
  rw [shapeCast_ab_1ab_apply, truncf_apply, matmul_256x1024x64_apply, shapeCast_self]
  exact sum_x0 x0 x1 w t k

theorem cs1_apply (w : Vec Ideal S1024x64 .f32) (t : Fin 256) (k : Fin 64) :
    shapeCast S256x64 (cs1 (F := Ideal) x1 w) shapeCasts_S1x256x64_S256x64 (ix2 t k) = kerC (Xof x0 x1) (f2 w) 1 t k := by
  rw [shapeCast_1ab_ab_apply]
  unfold cs1 k0_pay5 k0_pay4
  dsimp only
  rw [shapeCast_ab_1ab_apply, truncf_apply, matmul_256x1024x64_apply, shapeCast_self]
  exact sum_x1 x0 x1 w t k

theorem ones_apply (t : Fin 256) : ones (F := Ideal) (ix2 t (0 : Fin 1)) = oneW := by
  rfl

theorem q0_apply (s : Fin 256) (n : Fin 1024) : q0 (F := Ideal) x0 wq (ix2 s n) = kerQ (Xof x0 x1) (f2 wq) 0 s n := by
  unfold q0 k0_pay19 k0_pay7 k0_pay6
  dsimp only
  rw [mulf_apply, broadcast_apply, matmul_256x1024x1024_apply, shapeCast_self]
  exact congrArg (· * scale) (sum_x0 x0 x1 wq s n)
theorem qr0_apply (s : Fin 256) (n : Fin 512) : qr0 (F := Ideal) x0 wqr (ix2 s n) = kerQr (Xof x0 x1) (f2 wqr) 0 s n := by
  unfold qr0 k0_pay20 k0_pay8 k0_pay6
  dsimp only
  rw [mulf_apply, broadcast_apply, matmul_256x1024x512_apply, shapeCast_self]
  exact congrArg (· * scale) (sum_x0 x0 x1 wqr s n)
theorem kr0_apply (t : Fin 256) (e : Fin 32) : kr0 (F := Ideal) x0 wkr (ix2 t e) = kerKr (Xof x0 x1) (f2 wkr) 0 t e := by
  unfold kr0 k0_pay9 k0_pay6
  dsimp only
  rw [matmul_256x1024x32_apply, shapeCast_self]
  exact sum_x0 x0 x1 wkr t e
theorem k0_apply (t : Fin 256) (n : Fin 1024) :
    k0 (F := Ideal) x0 wd wuk (cs0 x0 wdN) (wukS wukN) (ix2 t n) = kerK (Xof x0 x1) (f2 wd) (f2 wdN) (f2 wuk) (f2 wukN) 0 t n := by
  unfold k0 k0_pay21 km0 k0_pay10
  dsimp only
  rw [addf_apply, matmul_256x64x1024_apply, matmul_256x64x1024_apply]
  unfold kerK proj
  simp only [cs0_apply x0 x1, wukS_apply]
theorem v0_apply (t : Fin 256) (n : Fin 1024) :
    v0 (F := Ideal) x0 wd wuv (cs0 x0 wdN) (wuvS wuvN) (ix2 t n) = kerV (Xof x0 x1) (f2 wd) (f2 wdN) (f2 wuv) (f2 wuvN) 0 t n := by
  unfold v0 k0_pay22 vm0 k0_pay11
  dsimp only
  rw [addf_apply, matmul_256x64x1024_apply, matmul_256x64x1024_apply]
  unfold kerV proj
  simp only [cs0_apply x0 x1, wuvS_apply]

theorem q1_apply (s : Fin 256) (n : Fin 1024) : q1 (F := Ideal) x1 wq (ix2 s n) = kerQ (Xof x0 x1) (f2 wq) 1 s n := by
  unfold q1 k0_pay53 k0_pay13 k0_pay12
  dsimp only
  rw [mulf_apply, broadcast_apply, matmul_256x1024x1024_apply, shapeCast_self]
  exact congrArg (· * scale) (sum_x1 x0 x1 wq s n)
theorem qr1_apply (s : Fin 256) (n : Fin 512) : qr1 (F := Ideal) x1 wqr (ix2 s n) = kerQr (Xof x0 x1) (f2 wqr) 1 s n := by
  unfold qr1 k0_pay54 k0_pay14 k0_pay12
  dsimp only
  rw [mulf_apply, broadcast_apply, matmul_256x1024x512_apply, shapeCast_self]
  exact congrArg (· * scale) (sum_x1 x0 x1 wqr s n)
theorem kr1_apply (t : Fin 256) (e : Fin 32) : kr1 (F := Ideal) x1 wkr (ix2 t e) = kerKr (Xof x0 x1) (f2 wkr) 1 t e := by
  unfold kr1 k0_pay15 k0_pay12
  dsimp only
  rw [matmul_256x1024x32_apply, shapeCast_self]
  exact sum_x1 x0 x1 wkr t e
theorem k1_apply (t : Fin 256) (n : Fin 1024) :
    k1 (F := Ideal) x1 wd wuk (cs1 x1 wdN) (wukS wukN) (ix2 t n) = kerK (Xof x0 x1) (f2 wd) (f2 wdN) (f2 wuk) (f2 wukN) 1 t n := by
  unfold k1 k0_pay55 km1 k0_pay16
  dsimp only
  rw [addf_apply, matmul_256x64x1024_apply, matmul_256x64x1024_apply]
  unfold kerK proj
  simp only [cs1_apply x0 x1, wukS_apply]
theorem v1_apply (t : Fin 256) (n : Fin 1024) :
    v1 (F := Ideal) x1 wd wuv (cs1 x1 wdN) (wuvS wuvN) (ix2 t n) = kerV (Xof x0 x1) (f2 wd) (f2 wdN) (f2 wuv) (f2 wuvN) 1 t n := by
  unfold v1 k0_pay57 k0_pay56 vm1 k0_pay17
  dsimp only
  rw [addf_apply, matmul_256x64x1024_apply, matmul_256x64x1024_apply]
  unfold kerV proj
  simp only [cs1_apply x0 x1, wuvS_apply]
end

end Cert.KVal

end
-- ==== Proof.KOut.lean ====
import proofs.«900965_g7700000000000966_dist_mla_v7x_xyz2x2x2_y_b2_s256_d1024_dc64_f32_1_alg».proof.Proof.KTerms
import proofs.«900965_g7700000000000966_dist_mla_v7x_xyz2x2x2_y_b2_s256_d1024_dc64_f32_1_alg».proof.Proof.Spec
import proofs.«900965_g7700000000000966_dist_mla_v7x_xyz2x2x2_y_b2_s256_d1024_dc64_f32_1_alg».proof.Proof.Arr
import proofs.«900965_g7700000000000966_dist_mla_v7x_xyz2x2x2_y_b2_s256_d1024_dc64_f32_1_alg».proof.Proof.KHeadFn
import proofs.«900965_g7700000000000966_dist_mla_v7x_xyz2x2x2_y_b2_s256_d1024_dc64_f32_1_alg».proof.Proof.KPre
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KVal

open Cert.KernelIdeal Cert.KernelIdeal.Gen Cert.KernelIdeal.Hand Cert.Spec Cert.Arr
open Idealize.ShloMosaic Idealize.ShloMosaic.ValueIdx

section Generic
variable {F : FTy → Type} [FloatOps F]

theorem headPay0_eq (x0 : Vec F S1x256x1024 .f32) (wd : Vec F S1024x64 .f32) (wuk wuv : Vec F S64x1024 .f32)
    (wq : Vec F S1024x1024 .f32) (wqr : Vec F S1024x512 .f32) (wkr : Vec F S1024x32 .f32)
    (cr0 : Vec F S1x256x64 .bf16) (wukr wuvr : Vec F S64x1024 .bf16) (h : Fin 16) :
    headPay0 x0 wd wuk wuv wq wqr wkr cr0 wukr wuvr h
      = headFn h (kr0 x0 wkr) ones (q0 x0 wq) (qr0 x0 wqr) (k0 x0 wd wuk cr0 wukr) (v0 x0 wd wuv cr0 wuvr) := by
  fin_cases h <;> rfl

theorem headPay1_eq (x1 : Vec F S1x256x1024 .f32) (wd : Vec F S1024x64 .f32) (wuk wuv : Vec F S64x1024 .f32)
    (wq : Vec F S1024x1024 .f32) (wqr : Vec F S1024x512 .f32) (wkr : Vec F S1024x32 .f32)
    (cr1 : Vec F S1x256x64 .bf16) (wukr wuvr : Vec F S64x1024 .bf16) (h : Fin 16) :
    headPay1 x1 wd wuk wuv wq wqr wkr cr1 wukr wuvr h
      = headFn h (kr1 x1 wkr) ones (q1 x1 wq) (qr1 x1 wqr) (k1 x1 wd wuk cr1 wukr) (v1 x1 wd wuv cr1 wuvr) := by
  fin_cases h <;> rfl
end Generic

theorem pay52_apply (a : Vec Ideal S256x1024 .f32) (wo : Vec Ideal S1024x1024 .f32) (s : Fin 256) (n : Fin 1024) :
    k0_pay52 (F := Ideal) a wo (ix3 (0 : Fin 1) s n) = ∑ j : Fin 1024, a (ix2 s j) * wo (ix2 j n) := by
  unfold k0_pay52
  rw [shapeCast_ab_1ab_apply, matmul_256x1024x1024_apply, shapeCast_self]

theorem pay86_apply (a : Vec Ideal S256x1024 .f32) (wo : Vec Ideal S1024x1024 .f32) (s : Fin 256) (n : Fin 1024) :
    k0_pay86 (F := Ideal) a wo (ix3 (0 : Fin 1) s n) = ∑ j : Fin 1024, a (ix2 s j) * wo (ix2 j n) := by
  unfold k0_pay86
  rw [shapeCast_ab_1ab_apply, matmul_256x1024x1024_apply, shapeCast_self]

theorem sideBySide_apply (p : Fin 16 → FVec Ideal S256x64 .f32) (s : Fin 256) (j : Fin 1024) :
    sideBySide p (ix2 s j) = p (headOf j) (ix2 s (inHead j)) := rfl

section
variable (x0 x1 : Vec Ideal S1x256x1024 .f32) (wd wdN : Vec Ideal S1024x64 .f32) (wuk wuv wukN wuvN : Vec Ideal S64x1024 .f32)
  (wq : Vec Ideal S1024x1024 .f32) (wqr : Vec Ideal S1024x512 .f32) (wkr : Vec Ideal S1024x32 .f32) (wo : Vec Ideal S1024x1024 .f32)

theorem wgt0_eq (h : Fin 16) (s t : Fin 256) :
    wgt h (kr0 x0 wkr) (q0 x0 wq) (qr0 x0 wqr) (k0 x0 wd wuk (cs0 x0 wdN) (wukS wukN)) s t
      = kerExp (Xof x0 x1) (f2 wd) (f2 wdN) (f2 wuk) (f2 wukN) (f2 wq) (f2 wqr) (f2 wkr) 0 h s t := by
  unfold wgt kerExp kerScore
  simp only [q0_apply x0 x1, qr0_apply x0 x1, kr0_apply x0 x1, k0_apply x0 x1]

theorem wgt1_eq (h : Fin 16) (s t : Fin 256) :
    wgt h (kr1 x1 wkr) (q1 x1 wq) (qr1 x1 wqr) (k1 x1 wd wuk (cs1 x1 wdN) (wukS wukN)) s t
      = kerExp (Xof x0 x1) (f2 wd) (f2 wdN) (f2 wuk) (f2 wukN) (f2 wq) (f2 wqr) (f2 wkr) 1 h s t := by
  unfold wgt kerExp kerScore
  simp only [q1_apply x0 x1, qr1_apply x0 x1, kr1_apply x0 x1, k1_apply x0 x1]

theorem head0_apply (h : Fin 16) (s : Fin 256) (d : Fin 64) :
    headFn (F := Ideal) h (kr0 x0 wkr) ones (q0 x0 wq) (qr0 x0 wqr) (k0 x0 wd wuk (cs0 x0 wdN) (wukS wukN))
        (v0 x0 wd wuv (cs0 x0 wdN) (wuvS wuvN)) (ix2 s d)
      = kerHead (Xof x0 x1) (f2 wd) (f2 wdN) (f2 wuk) (f2 wukN) (f2 wuv) (f2 wuvN) (f2 wq) (f2 wqr) (f2 wkr) 0 h s d := by
  rw [headFn_apply]
  unfold kerHead kerSum
  simp only [wgt0_eq x0 x1, v0_apply x0 x1, ones_apply]

theorem head1_apply (h : Fin 16) (s : Fin 256) (d : Fin 64) :
    headFn (F := Ideal) h (kr1 x1 wkr) ones (q1 x1 wq) (qr1 x1 wqr) (k1 x1 wd wuk (cs1 x1 wdN) (wukS wukN))
        (v1 x1 wd wuv (cs1 x1 wdN) (wuvS wuvN)) (ix2 s d)
      = kerHead (Xof x0 x1) (f2 wd) (f2 wdN) (f2 wuk) (f2 wukN) (f2 wuv) (f2 wuvN) (f2 wq) (f2 wqr) (f2 wkr) 1 h s d := by
  rw [headFn_apply]
  unfold kerHead kerSum
  simp only [wgt1_eq x0 x1, v1_apply x0 x1, ones_apply]

theorem outB0_apply (s : Fin 256) (n : Fin 1024) :
    outB0 (F := Ideal) x0 wd wuk wuv wq wqr wkr wo (cs0 x0 wdN) (wukS wukN) (wuvS wuvN) (ix3 (0 : Fin 1) s n)
      = kerOut (Xof x0 x1) (f2 wd) (f2 wdN) (f2 wuk) (f2 wukN) (f2 wuv) (f2 wuvN) (f2 wq) (f2 wqr) (f2 wkr) (f2 wo) 0 s n := by
  unfold outB0 kerOut kerO
  rw [pay52_apply]
  refine Finset.sum_congr rfl fun j _ => ?_
  rw [sideBySide_apply, headPay0_eq, head0_apply x0 x1, f2_apply]

theorem outB1_apply (s : Fin 256) (n : Fin 1024) :
    outB1 (F := Ideal) x1 wd wuk wuv wq wqr wkr wo (cs1 x1 wdN) (wukS wukN) (wuvS wuvN) (ix3 (0 : Fin 1) s n)
      = kerOut (Xof x0 x1) (f2 wd) (f2 wdN) (f2 wuk) (f2 wukN) (f2 wuv) (f2 wuvN) (f2 wq) (f2 wqr) (f2 wkr) (f2 wo) 1 s n := by
  unfold outB1 kerOut kerO
  rw [pay86_apply]
  refine Finset.sum_congr rfl fun j _ => ?_
  rw [sideBySide_apply, headPay1_eq, head1_apply x0 x1, f2_apply]
end

end Cert.KVal

end
-- ==== Proof.Alg.lean ====
import proofs.«900965_g7700000000000966_dist_mla_v7x_xyz2x2x2_y_b2_s256_d1024_dc64_f32_1_alg».proof.Proof.Spec
import Idealize.ShloMosaic.Lib.IdealHost
import Mathlib.Data.EReal.Basic
import Mathlib.Data.EReal.Operations
import Mathlib.Data.EReal.Inv
import Mathlib.Algebra.BigOperators.Fin
import Mathlib.Analysis.Complex.Exponential
import Mathlib.Data.Finset.Lattice.Fold
import Mathlib.Tactic.FieldSimp
import Mathlib.Tactic.Ring

noncomputable section

namespace Cert.Alg

open Idealize.ShloMosaic Cert.Spec

theorem IsReal_mul {a b : EReal} (ha : IsReal a) (hb : IsReal b) : IsReal (a * b) := by
  obtain ⟨r, rfl⟩ := ha; obtain ⟨t, rfl⟩ := hb; exact ⟨r * t, (EReal.coe_mul r t).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal_sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem IsReal_proj {J N : Nat} {x : Fin 256 → Fin J → EReal} {W : Fin J → Fin N → EReal}
    (hx : ∀ s j, IsReal (x s j)) (hW : ∀ j n, IsReal (W j n)) (s : Fin 256) (n : Fin N) : IsReal (proj x W s n) :=
  IsReal_sum _ fun j => IsReal_mul (hx s j) (hW j n)

theorem oneW_eq : oneW = 1 := Ideal.ofBits_one_f32
theorem zeroW_eq : zeroW = 0 := Ideal.ofBits_zero_f32
theorem negInfW_eq : negInfW = ⊥ := by simp [negInfW, Ideal.ofBits, Ideal.ieee]

theorem IsReal_scale : IsReal scale := by
  unfold scale
  simp [Ideal.ofBits, Ideal.ieee, -EReal.coe_mul]
  exact ⟨_, rfl⟩

theorem sum_blocks {M : Type} [AddCommMonoid M] (y : Fin 2) (f : Fin 128 → M) :
    ∑ k : Fin 128, f k
      = (∑ k : Fin 64, f ⟨64 * y.val + k.val, by omega⟩)
        + ∑ k : Fin 64, f ⟨64 * (other y).val + k.val, by omega⟩ := by
  have h : ∑ k : Fin 128, f k = (∑ k : Fin 64, f ⟨k.val, by omega⟩) + ∑ k : Fin 64, f ⟨64 + k.val, by omega⟩ :=
    Fin.sum_univ_add (a := 64) (b := 64) f
  rw [h]
  fin_cases y
  · refine congrArg₂ (· + ·) (Finset.sum_congr rfl fun k _ => congrArg f (Fin.ext ?_))
      (Finset.sum_congr rfl fun k _ => congrArg f (Fin.ext ?_)) <;> simp [other]
  · rw [add_comm]
    refine congrArg₂ (· + ·) (Finset.sum_congr rfl fun k _ => congrArg f (Fin.ext ?_))
      (Finset.sum_congr rfl fun k _ => congrArg f (Fin.ext ?_)) <;> simp [other]

theorem kerK_eq (y : Fin 2) (X : Fin 2 → Fin 256 → Fin 1024 → EReal) (Wd : Fin 1024 → Fin 128 → EReal)
    (Wuk : Fin 128 → Fin 1024 → EReal) :
    kerK X (colHalf Wd y) (colHalf Wd (other y)) (rowHalf Wuk y) (rowHalf Wuk (other y)) = refK X Wd Wuk := by
  funext b t n
  exact (sum_blocks y fun k => refC X Wd b t k * Wuk k n).symm

theorem kerV_eq (y : Fin 2) (X : Fin 2 → Fin 256 → Fin 1024 → EReal) (Wd : Fin 1024 → Fin 128 → EReal)
    (Wuv : Fin 128 → Fin 1024 → EReal) :
    kerV X (colHalf Wd y) (colHalf Wd (other y)) (rowHalf Wuv y) (rowHalf Wuv (other y)) = refV X Wd Wuv := by
  funext b t n
  exact (sum_blocks y fun k => refC X Wd b t k * Wuv k n).symm

theorem softmax_real (a v : Fin 256 → ℝ) (m : ℝ) :
    ∑ t, v t * (Real.exp (a t - m) * (1 / ∑ u, Real.exp (a u - m)))
      = (∑ t, Real.exp (a t) * v t) * (1 / ∑ u, Real.exp (a u)) := by
  have hM : Real.exp m ≠ 0 := (Real.exp_pos m).ne'
  have hE : (∑ u : Fin 256, Real.exp (a u)) ≠ 0 :=
    (Finset.sum_pos (fun u _ => Real.exp_pos (a u)) ⟨0, Finset.mem_univ _⟩).ne'
  simp only [Real.exp_sub, ← Finset.sum_div]
  rw [Finset.sum_mul]
  refine Finset.sum_congr rfl fun t _ => ?_
  field_simp

section Head

variable (X : Fin 2 → Fin 256 → Fin 1024 → EReal) (Wd : Fin 1024 → Fin 128 → EReal)
  (Wuk Wuv : Fin 128 → Fin 1024 → EReal) (Wq : Fin 1024 → Fin 1024 → EReal) (Wqr : Fin 1024 → Fin 512 → EReal)
  (Wkr : Fin 1024 → Fin 32 → EReal)
  (Wdm Wdn : Fin 1024 → Fin 64 → EReal) (Wukm Wukn Wuvm Wuvn : Fin 64 → Fin 1024 → EReal)

theorem scores_real (b : Fin 2) (sc : ℝ) (q k : Fin 256 → Fin 1024 → ℝ) (qr : Fin 256 → Fin 512 → ℝ)
    (kr : Fin 256 → Fin 32 → ℝ) (hsc : scale = (sc : EReal))
    (hq : ∀ s n, refQ X Wq b s n = (q s n : EReal)) (hk : ∀ t n, refK X Wd Wuk b t n = (k t n : EReal))
    (hqr : ∀ s n, refQr X Wqr b s n = (qr s n : EReal)) (hkr : ∀ t e, refKr X Wkr b t e = (kr t e : EReal))
    (hK : kerK X Wdm Wdn Wukm Wukn = refK X Wd Wuk) (h : Fin 16) (s : Fin 256) :
    ∃ a : Fin 256 → ℝ, (∀ t, refScore X Wd Wuk Wq Wqr Wkr b h s t = (a t : EReal))
      ∧ ∀ t, kerScore X Wdm Wdn Wukm Wukn Wq Wqr Wkr b h s t = (a t : EReal) := by
  refine ⟨fun t => ((∑ d : Fin 64, q s (col64 h d) * k t (col64 h d)) + ∑ e : Fin 32, qr s (col32 h e) * kr t e) * sc,
    fun t => ?_, fun t => ?_⟩
  · unfold refScore
    simp only [hq, hk, hqr, hkr, hsc]
    rw [EReal.coe_mul, EReal.coe_add, coe_sum, coe_sum]
    simp only [EReal.coe_mul]
  · have hq' : ∀ s n, proj (X b) Wq s n = (q s n : EReal) := hq
    have hqr' : ∀ s n, proj (X b) Wqr s n = (qr s n : EReal) := hqr
    have hkr' : ∀ t e, kerKr X Wkr b t e = (kr t e : EReal) := hkr
    have e : ((∑ d : Fin 64, q s (col64 h d) * k t (col64 h d)) + ∑ e : Fin 32, qr s (col32 h e) * kr t e) * sc
        = (∑ d : Fin 64, q s (col64 h d) * sc * k t (col64 h d)) + ∑ e : Fin 32, qr s (col32 h e) * sc * kr t e := by
      rw [add_mul, Finset.sum_mul, Finset.sum_mul]
      congr 1 <;> exact Finset.sum_congr rfl fun _ _ => by ring
    unfold kerScore kerQ kerQr
    simp only [hq', hqr', hkr', hK, hk, hsc]
    rw [e, EReal.coe_add, coe_sum, coe_sum]
    simp only [EReal.coe_mul]

theorem head_eq (b : Fin 2) (sc : ℝ) (q k v : Fin 256 → Fin 1024 → ℝ) (qr : Fin 256 → Fin 512 → ℝ)
    (kr : Fin 256 → Fin 32 → ℝ) (hsc : scale = (sc : EReal))
    (hq : ∀ s n, refQ X Wq b s n = (q s n : EReal)) (hk : ∀ t n, refK X Wd Wuk b t n = (k t n : EReal))
    (hv : ∀ t n, refV X Wd Wuv b t n = (v t n : EReal))
    (hqr : ∀ s n, refQr X Wqr b s n = (qr s n : EReal)) (hkr : ∀ t e, refKr X Wkr b t e = (kr t e : EReal))
    (hK : kerK X Wdm Wdn Wukm Wukn = refK X Wd Wuk) (hV : kerV X Wdm Wdn Wuvm Wuvn = refV X Wd Wuv)
    (h : Fin 16) (s : Fin 256) (d : Fin 64) :
    kerHead X Wdm Wdn Wukm Wukn Wuvm Wuvn Wq Wqr Wkr b h s d = refHead X Wd Wuk Wuv Wq Wqr Wkr b h s d := by
  obtain ⟨a, hrs, hks⟩ := scores_real X Wd Wuk Wq Wqr Wkr Wdm Wdn Wukm Wukn b sc q k qr kr hsc hq hk hqr hkr hK h s

  obtain ⟨m, hm⟩ : ∃ m : ℝ, refMax X Wd Wuk Wq Wqr Wkr b h s = (m : EReal) := by
    obtain ⟨t, -, ht⟩ := Finset.exists_mem_eq_sup Finset.univ ⟨(0 : Fin 256), Finset.mem_univ _⟩
      (fun t : Fin 256 => refScore X Wd Wuk Wq Wqr Wkr b h s t)
    refine ⟨a t, ?_⟩
    unfold refMax
    rw [negInfW_eq, max_eq_right bot_le, ht, hrs]

  have hre : ∀ t, refExp X Wd Wuk Wq Wqr Wkr b h s t = (Real.exp (a t - m) : EReal) := by
    intro t; unfold refExp; rw [hrs, hm, ← EReal.coe_sub, Ideal.exp_coe]
  have hrS : refSum X Wd Wuk Wq Wqr Wkr b h s = ((∑ t, Real.exp (a t - m) : ℝ) : EReal) := by
    unfold refSum; rw [zeroW_eq, zero_add, coe_sum]; exact Finset.sum_congr rfl fun t _ => hre t
  have hSne : (∑ t : Fin 256, Real.exp (a t - m)) ≠ 0 :=
    (Finset.sum_pos (fun t _ => Real.exp_pos (a t - m)) ⟨0, Finset.mem_univ _⟩).ne'
  have hrp : ∀ t, refP X Wd Wuk Wq Wqr Wkr b h s t
      = ((Real.exp (a t - m) * (1 / ∑ u, Real.exp (a u - m)) : ℝ) : EReal) := by
    intro t; unfold refP; rw [hre, hrS, Ideal.div_coe hSne, ← EReal.coe_mul]
  have hrh : refHead X Wd Wuk Wuv Wq Wqr Wkr b h s d
      = ((∑ t, v t (col64 h d) * (Real.exp (a t - m) * (1 / ∑ u, Real.exp (a u - m))) : ℝ) : EReal) := by
    unfold refHead; rw [coe_sum]
    exact Finset.sum_congr rfl fun t _ => by rw [hv, hrp, ← EReal.coe_mul]

  have hke : ∀ t, kerExp X Wdm Wdn Wukm Wukn Wq Wqr Wkr b h s t = (Real.exp (a t) : EReal) := by
    intro t; unfold kerExp; rw [hks, Ideal.exp_coe]
  have hkS : kerSum X Wdm Wdn Wukm Wukn Wq Wqr Wkr b h s = ((∑ t, Real.exp (a t) : ℝ) : EReal) := by
    unfold kerSum; rw [coe_sum]
    exact Finset.sum_congr rfl fun t _ => by rw [hke, oneW_eq, mul_one]
  have hEne : (∑ t : Fin 256, Real.exp (a t)) ≠ 0 :=
    (Finset.sum_pos (fun t _ => Real.exp_pos (a t)) ⟨0, Finset.mem_univ _⟩).ne'
  have hkn : ∑ t : Fin 256, kerExp X Wdm Wdn Wukm Wukn Wq Wqr Wkr b h s t * kerV X Wdm Wdn Wuvm Wuvn b t (col64 h d)
      = ((∑ t, Real.exp (a t) * v t (col64 h d) : ℝ) : EReal) := by
    rw [coe_sum]
    exact Finset.sum_congr rfl fun t _ => by rw [hke, hV, hv, ← EReal.coe_mul]
  have hkh : kerHead X Wdm Wdn Wukm Wukn Wuvm Wuvn Wq Wqr Wkr b h s d
      = (((∑ t, Real.exp (a t) * v t (col64 h d)) * (1 / ∑ u, Real.exp (a u)) : ℝ) : EReal) := by
    unfold kerHead
    rw [hkn, hkS, oneW_eq, Ideal.div_coe hEne, one_mul, ← EReal.coe_mul]
  rw [hkh, hrh]
  exact congrArg _ (softmax_real a (fun t => v t (col64 h d)) m).symm

end Head

-- On real inputs the kernel's arrangement (latent cut in two halves, scale on the queries, unshifted softmax) is the reference's.
theorem ker_eq_ref (y : Fin 2)
    (X : Fin 2 → Fin 256 → Fin 1024 → EReal) (Wd : Fin 1024 → Fin 128 → EReal) (Wuk Wuv : Fin 128 → Fin 1024 → EReal)
    (Wq : Fin 1024 → Fin 1024 → EReal) (Wqr : Fin 1024 → Fin 512 → EReal) (Wkr : Fin 1024 → Fin 32 → EReal) (Wo : Fin 1024 → Fin 1024 → EReal)
    (hX : ∀ b s j, Cert.Spec.IsReal (X b s j)) (hWd : ∀ j k, Cert.Spec.IsReal (Wd j k)) (hWuk : ∀ k n, Cert.Spec.IsReal (Wuk k n)) (hWuv : ∀ k n, Cert.Spec.IsReal (Wuv k n))
    (hWq : ∀ j n, Cert.Spec.IsReal (Wq j n)) (hWqr : ∀ j n, Cert.Spec.IsReal (Wqr j n)) (hWkr : ∀ j n, Cert.Spec.IsReal (Wkr j n)) (hWo : ∀ j n, Cert.Spec.IsReal (Wo j n))
    (b : Fin 2) (s : Fin 256) (n : Fin 1024) :
    Cert.Spec.kerOut X (Cert.Spec.colHalf Wd y) (Cert.Spec.colHalf Wd (Cert.Spec.other y)) (Cert.Spec.rowHalf Wuk y) (Cert.Spec.rowHalf Wuk (Cert.Spec.other y)) (Cert.Spec.rowHalf Wuv y) (Cert.Spec.rowHalf Wuv (Cert.Spec.other y)) Wq Wqr Wkr Wo b s n
      = Cert.Spec.refOut X Wd Wuk Wuv Wq Wqr Wkr Wo b s n := by
  obtain ⟨sc, hsc⟩ := IsReal_scale
  have hC : ∀ s k, IsReal (refC X Wd b s k) := IsReal_proj (hX b) hWd
  choose q hq using (IsReal_proj (hX b) hWq : ∀ s n, ∃ r : ℝ, refQ X Wq b s n = (r : EReal))
  choose k hk using (IsReal_proj hC hWuk : ∀ t n, ∃ r : ℝ, refK X Wd Wuk b t n = (r : EReal))
  choose v hv using (IsReal_proj hC hWuv : ∀ t n, ∃ r : ℝ, refV X Wd Wuv b t n = (r : EReal))
  choose qr hqr using (IsReal_proj (hX b) hWqr : ∀ s n, ∃ r : ℝ, refQr X Wqr b s n = (r : EReal))
  choose kr hkr using (IsReal_proj (hX b) hWkr : ∀ t e, ∃ r : ℝ, refKr X Wkr b t e = (r : EReal))
  unfold kerOut refOut kerO refO
  refine Finset.sum_congr rfl fun j _ => ?_
  rw [head_eq X Wd Wuk Wuv Wq Wqr Wkr _ _ _ _ _ _ b sc q k v qr kr hsc hq hk hv hqr hkr
    (kerK_eq y X Wd Wuk) (kerV_eq y X Wd Wuv)]

end Cert.Alg

end
-- ==== Proof.RefValue.lean ====
import proofs.«900965_g7700000000000966_dist_mla_v7x_xyz2x2x2_y_b2_s256_d1024_dc64_f32_1_alg».proof.Proof.Gen.ReferenceIdeal.Run
import proofs.«900965_g7700000000000966_dist_mla_v7x_xyz2x2x2_y_b2_s256_d1024_dc64_f32_1_alg».proof.Proof.Gen.ReferenceIdeal.Read
import proofs.«900965_g7700000000000966_dist_mla_v7x_xyz2x2x2_y_b2_s256_d1024_dc64_f32_1_alg».proof.Proof.Spec
import proofs.«900965_g7700000000000966_dist_mla_v7x_xyz2x2x2_y_b2_s256_d1024_dc64_f32_1_alg».proof.Proof.Arr
import Idealize.ShloMosaic.Lib.ValueIdx
import Idealize.ShloMosaic.Lib.Pipeline.Value
import Idealize.ShloMosaic.PureOps.Ideal.Laws
import Idealize.ShloMosaic.PureOps.Reduce

noncomputable section

namespace Cert.RefSide

open Idealize.ShloMosaic Idealize.SL.Sem Idealize.ShloMosaic.ValueIdx
open Cert.ReferenceIdeal Cert.ReferenceIdeal.Read Cert.Spec Cert.Arr

theorem fold_max_eq_max_sup {ι : Type} [DecidableEq ι] (s : Finset ι) (b : EReal) (f : ι → EReal) :
    s.fold max b f = max b (s.sup f) := by
  induction s using Finset.induction_on with
  | empty => simp
  | insert a s ha ih => rw [Finset.fold_insert ha, Finset.sup_insert, ih]; exact max_left_comm _ _ _

theorem split64 (b : Fin 2) (t : Fin 256) (h : Fin 16) (d : Fin 64) :
    (((b.val * 256 + t.val) * 16 + h.val) * 64 + d.val) / 262144 = b.val
    ∧ (((b.val * 256 + t.val) * 16 + h.val) * 64 + d.val) / 1024 % 256 = t.val
    ∧ (((b.val * 256 + t.val) * 16 + h.val) * 64 + d.val) % 1024 = 64 * h.val + d.val := by
  have hb := b.isLt; have ht := t.isLt; have hh := h.isLt; have hd := d.isLt
  omega

theorem split32 (b : Fin 2) (t : Fin 256) (h : Fin 16) (e : Fin 32) :
    (((b.val * 256 + t.val) * 16 + h.val) * 32 + e.val) / 131072 = b.val
    ∧ (((b.val * 256 + t.val) * 16 + h.val) * 32 + e.val) / 512 % 256 = t.val
    ∧ (((b.val * 256 + t.val) * 16 + h.val) * 32 + e.val) % 512 = 32 * h.val + e.val := by
  have hb := b.isLt; have ht := t.isLt; have hh := h.isLt; have he := e.isLt
  omega

theorem split1024 (b : Fin 2) (s : Fin 256) (j : Fin 1024) :
    ((b.val * 256 + s.val) * 1024 + j.val) / 262144 = b.val
    ∧ ((b.val * 256 + s.val) * 1024 + j.val) / 1024 % 256 = s.val
    ∧ ((b.val * 256 + s.val) * 1024 + j.val) / 64 % 16 = j.val / 64
    ∧ ((b.val * 256 + s.val) * 1024 + j.val) % 64 = j.val % 64 := by
  have hb := b.isLt; have hs := s.isLt; have hj := j.isLt
  omega

section Stages

variable (x0 : (⟨S2x256x1024, .f32⟩ : BufTy).Contents (Elt Ideal)) (x1 : (⟨S1024x128, .f32⟩ : BufTy).Contents (Elt Ideal))
  (x2 x3 : (⟨S128x1024, .f32⟩ : BufTy).Contents (Elt Ideal)) (x4 : (⟨S1024x1024, .f32⟩ : BufTy).Contents (Elt Ideal))
  (x5 : (⟨S1024x512, .f32⟩ : BufTy).Contents (Elt Ideal)) (x6 : (⟨S1024x32, .f32⟩ : BufTy).Contents (Elt Ideal))
  (x7 : (⟨S1024x1024, .f32⟩ : BufTy).Contents (Elt Ideal))

local notation "X" => f3 x0
local notation "Wd" => f2 x1
local notation "Wuk" => f2 x2
local notation "Wuv" => f2 x3
local notation "Wq" => f2 x4
local notation "Wqr" => f2 x5
local notation "Wkr" => f2 x6
local notation "Wo" => f2 x7

theorem c_apply (b : Fin 2) (s : Fin 256) (k : Fin 128) :
    val_main_v0 (F := Ideal) x0 x1 (ix3 b s k) = refC X Wd b s k := by
  rw [val_main_v0_apply]
  unfold refC proj
  refine Finset.sum_congr rfl fun j _ => ?_
  rw [f3_apply, f2_apply]
  congr 2
  · exact idx_ext3 rfl rfl rfl
  · exact idx_ext2 rfl rfl

theorem k_apply (b : Fin 2) (t : Fin 256) (n : Fin 1024) :
    val_main_v1 (F := Ideal) x0 x1 x2 (ix3 b t n) = refK X Wd Wuk b t n := by
  rw [val_main_v1_apply]
  unfold refK proj
  refine Finset.sum_congr rfl fun j _ => ?_
  rw [← c_apply, f2_apply]
  congr 2
  · exact idx_ext3 rfl rfl rfl
  · exact idx_ext2 rfl rfl

theorem k4_apply (b : Fin 2) (t : Fin 256) (h : Fin 16) (d : Fin 64) :
    val_main_v2 (F := Ideal) x0 x1 x2 (ix4 b t h d) = refK X Wd Wuk b t (col64 h d) := by
  rw [val_main_v2_apply, ← k_apply]
  congr 1
  obtain ⟨e0, e1, e2⟩ := split64 b t h d
  exact idx_ext3 e0 e1 e2

theorem v_apply (b : Fin 2) (t : Fin 256) (n : Fin 1024) :
    val_main_v3 (F := Ideal) x0 x1 x3 (ix3 b t n) = refV X Wd Wuv b t n := by
  rw [val_main_v3_apply]
  unfold refV proj
  refine Finset.sum_congr rfl fun j _ => ?_
  rw [← c_apply, f2_apply]
  congr 2
  · exact idx_ext3 rfl rfl rfl
  · exact idx_ext2 rfl rfl

theorem v4_apply (b : Fin 2) (t : Fin 256) (h : Fin 16) (d : Fin 64) :
    val_main_v4 (F := Ideal) x0 x1 x3 (ix4 b t h d) = refV X Wd Wuv b t (col64 h d) := by
  rw [val_main_v4_apply, ← v_apply]
  congr 1
  obtain ⟨e0, e1, e2⟩ := split64 b t h d
  exact idx_ext3 e0 e1 e2

theorem q_apply (b : Fin 2) (s : Fin 256) (n : Fin 1024) :
    val_main_v5 (F := Ideal) x0 x4 (ix3 b s n) = refQ X Wq b s n := by
  rw [val_main_v5_apply]
  unfold refQ proj
  refine Finset.sum_congr rfl fun j _ => ?_
  rw [f3_apply, f2_apply]
  congr 2
  · exact idx_ext3 rfl rfl rfl
  · exact idx_ext2 rfl rfl

theorem q4_apply (b : Fin 2) (s : Fin 256) (h : Fin 16) (d : Fin 64) :
    val_main_v6 (F := Ideal) x0 x4 (ix4 b s h d) = refQ X Wq b s (col64 h d) := by
  rw [val_main_v6_apply, ← q_apply]
  congr 1
  obtain ⟨e0, e1, e2⟩ := split64 b s h d
  exact idx_ext3 e0 e1 e2

theorem qr_apply (b : Fin 2) (s : Fin 256) (n : Fin 512) :
    val_main_v7 (F := Ideal) x0 x5 (ix3 b s n) = refQr X Wqr b s n := by
  rw [val_main_v7_apply]
  unfold refQr proj
  refine Finset.sum_congr rfl fun j _ => ?_
  rw [f3_apply, f2_apply]
  congr 2
  · exact idx_ext3 rfl rfl rfl
  · exact idx_ext2 rfl rfl

theorem qr4_apply (b : Fin 2) (s : Fin 256) (h : Fin 16) (e : Fin 32) :
    val_main_v8 (F := Ideal) x0 x5 (ix4 b s h e) = refQr X Wqr b s (col32 h e) := by
  rw [val_main_v8_apply, ← qr_apply]
  congr 1
  obtain ⟨e0, e1, e2⟩ := split32 b s h e
  exact idx_ext3 e0 e1 e2

theorem kr_apply (b : Fin 2) (t : Fin 256) (e : Fin 32) :
    val_main_v9 (F := Ideal) x0 x6 (ix3 b t e) = refKr X Wkr b t e := by
  rw [val_main_v9_apply]
  unfold refKr proj
  refine Finset.sum_congr rfl fun j _ => ?_
  rw [f3_apply, f2_apply]
  congr 2
  · exact idx_ext3 rfl rfl rfl
  · exact idx_ext2 rfl rfl

theorem kr4_apply (b : Fin 2) (t : Fin 256) (h : Fin 16) (e : Fin 32) :
    val_main_v12 (F := Ideal) x0 x6 (ix4 b t h e) = refKr X Wkr b t e := by
  rw [val_main_v12_apply, val_main_v10_apply, ← kr_apply]
  congr 1
  have hb := b.isLt; have ht := t.isLt; have he := e.isLt
  exact funext fun a => Fin.ext (by
    match a with
    | ⟨0, _⟩ => show (((b.val * 256 + t.val) * 1 + 0) * 32 + e.val) / 8192 = b.val; omega
    | ⟨1, _⟩ => show (((b.val * 256 + t.val) * 1 + 0) * 32 + e.val) / 32 % 256 = t.val; omega
    | ⟨2, _⟩ => show (((b.val * 256 + t.val) * 1 + 0) * 32 + e.val) % 32 = e.val; omega)

theorem qk_apply (b : Fin 2) (h : Fin 16) (s t : Fin 256) :
    val_main_v11 (F := Ideal) x0 x1 x2 x4 (ix4 b h s t)
      = ∑ d : Fin 64, refQ X Wq b s (col64 h d) * refK X Wd Wuk b t (col64 h d) := by
  rw [val_main_v11_apply]
  refine Finset.sum_congr rfl fun d _ => ?_
  rw [← q4_apply, ← k4_apply]
  congr 2
  · exact idx_ext4 rfl rfl rfl rfl
  · exact idx_ext4 rfl rfl rfl rfl

theorem qrkr_apply (b : Fin 2) (h : Fin 16) (s t : Fin 256) :
    val_main_v13 (F := Ideal) x0 x5 x6 (ix4 b h s t)
      = ∑ e : Fin 32, refQr X Wqr b s (col32 h e) * refKr X Wkr b t e := by
  rw [val_main_v13_apply]
  refine Finset.sum_congr rfl fun e _ => ?_
  rw [← qr4_apply, ← kr4_apply x0 x6 b t h e]
  congr 2
  · exact idx_ext4 rfl rfl rfl rfl
  · exact idx_ext4 rfl rfl rfl rfl

theorem score_apply (b : Fin 2) (h : Fin 16) (s t : Fin 256) :
    val_main_v16 (F := Ideal) x0 x1 x2 x4 x5 x6 (ix4 b h s t) = refScore X Wd Wuk Wq Wqr Wkr b h s t := by
  rw [val_main_v16_apply, val_main_v14_apply, val_main_v15_apply, val_main_cst_apply, qk_apply, qrkr_apply]
  rfl

theorem lift_last (hr : S2x16x256x256.Reduces [3] S2x16x256) (b : Fin 2) (h : Fin 16) (s : Fin 256)
    (k : Fin (S2x16x256x256.size 3)) : hr.lift (ix3 b h s) k = ix4 b h s (⟨k.val, k.isLt⟩ : Fin 256) :=
  idx_ext4 rfl rfl rfl rfl

theorem max_apply (b : Fin 2) (h : Fin 16) (s : Fin 256) :
    val_main_v17 (F := Ideal) x0 x1 x2 x4 x5 x6 (ix3 b h s) = refMax X Wd Wuk Wq Wqr Wkr b h s := by
  have hr : S2x16x256x256.Reduces [3] S2x16x256 := by decide
  unfold val_main_v17
  rw [Host.reduce_eq_fold_single FloatOps.maximumf _ _ Facts₀.reducesTo_S2x16x256x256_S2x16x256_d3 hr Facts₀.h_S_]
  have hf : (val_main_v16 (F := Ideal) x0 x1 x2 x4 x5 x6 ∘ hr.lift (ix3 b h s))
      = fun t : Fin 256 => refScore X Wd Wuk Wq Wqr Wkr b h s t :=
    funext fun t => by
      show val_main_v16 (F := Ideal) x0 x1 x2 x4 x5 x6 (hr.lift (ix3 b h s) t) = _
      rw [lift_last hr b h s t]; exact score_apply x0 x1 x2 x4 x5 x6 b h s t
  refine (congrArg (fun f => Finset.fold max _ f (Finset.univ : Finset (Fin 256))) hf).trans ?_
  rw [fold_max_eq_max_sup]
  rfl

theorem maxb_apply (b : Fin 2) (h : Fin 16) (s t : Fin 256) :
    val_main_v19 (F := Ideal) x0 x1 x2 x4 x5 x6 (ix4 b h s t) = refMax X Wd Wuk Wq Wqr Wkr b h s := by
  rw [val_main_v19_apply, val_main_v18_apply, ← max_apply]
  congr 1
  exact idx_ext3 rfl rfl rfl

theorem exp_apply (b : Fin 2) (h : Fin 16) (s t : Fin 256) :
    val_main_v21 (F := Ideal) x0 x1 x2 x4 x5 x6 (ix4 b h s t) = refExp X Wd Wuk Wq Wqr Wkr b h s t := by
  rw [val_main_v21_apply, val_main_v20_apply, score_apply, maxb_apply]
  rfl

theorem sum_apply (b : Fin 2) (h : Fin 16) (s : Fin 256) :
    val_main_v22 (F := Ideal) x0 x1 x2 x4 x5 x6 (ix3 b h s) = refSum X Wd Wuk Wq Wqr Wkr b h s := by
  rw [val_main_v22_apply, val_main_cst_1_apply]
  unfold refSum
  refine congrArg (_ + ·) (Finset.sum_congr rfl fun t _ => ?_)
  rw [← exp_apply]
  congr 1
  exact idx_ext4 rfl rfl rfl rfl

theorem sumb_apply (b : Fin 2) (h : Fin 16) (s t : Fin 256) :
    val_main_v24 (F := Ideal) x0 x1 x2 x4 x5 x6 (ix4 b h s t) = refSum X Wd Wuk Wq Wqr Wkr b h s := by
  rw [val_main_v24_apply, val_main_v23_apply, ← sum_apply]
  congr 1
  exact idx_ext3 rfl rfl rfl

theorem p_apply (b : Fin 2) (h : Fin 16) (s t : Fin 256) :
    val_main_v25 (F := Ideal) x0 x1 x2 x4 x5 x6 (ix4 b h s t) = refP X Wd Wuk Wq Wqr Wkr b h s t := by
  rw [val_main_v25_apply, exp_apply, sumb_apply]
  rfl

theorem head_apply (b : Fin 2) (h : Fin 16) (d : Fin 64) (s : Fin 256) :
    val_main_v26 (F := Ideal) x0 x1 x2 x3 x4 x5 x6 (ix4 b h d s) = refHead X Wd Wuk Wuv Wq Wqr Wkr b h s d := by
  rw [val_main_v26_apply]
  unfold refHead
  refine Finset.sum_congr rfl fun t _ => ?_
  rw [← v4_apply, ← p_apply]
  congr 2
  · exact idx_ext4 rfl rfl rfl rfl
  · exact idx_ext4 rfl rfl rfl rfl

theorem o_apply (b : Fin 2) (s : Fin 256) (j : Fin 1024) :
    val_main_v28 (F := Ideal) x0 x1 x2 x3 x4 x5 x6 (ix3 b s j) = refO X Wd Wuk Wuv Wq Wqr Wkr b s j := by
  rw [val_main_v28_apply, val_main_v27_apply]
  unfold refO
  rw [← head_apply]
  congr 1
  obtain ⟨e0, e1, e2, e3⟩ := split1024 b s j
  exact funext fun a => Fin.ext (by
    match a with | ⟨0, _⟩ => exact e0 | ⟨1, _⟩ => exact e2 | ⟨2, _⟩ => exact e3 | ⟨3, _⟩ => exact e1)

theorem out_apply (b : Fin 2) (s : Fin 256) (n : Fin 1024) :
    val_main_v29 (F := Ideal) x0 x1 x2 x3 x4 x5 x6 x7 (ix3 b s n) = refOut X Wd Wuk Wuv Wq Wqr Wkr Wo b s n := by
  rw [val_main_v29_apply]
  unfold refOut
  refine Finset.sum_congr rfl fun j _ => ?_
  rw [← o_apply, f2_apply]
  congr 2
  · exact idx_ext3 rfl rfl rfl
  · exact idx_ext2 rfl rfl

end Stages

-- The reference's result at an index is `refOut` of its arguments.
theorem res_apply (m : (ℓ : Loc Cert.ReferenceIdeal.nD Cert.ReferenceIdeal.τ Cert.ReferenceIdeal.sig) → Buf (Elt Ideal) ℓ)
    (c : Dev Cert.ReferenceIdeal.nD) (b : Fin 2) (s : Fin 256) (n : Fin 1024) :
    Cert.Arr.f3 (Cert.ReferenceIdeal.Value.res_out0 (F := Ideal) m c) b s n
      = Cert.Spec.refOut
          (Cert.Arr.f3 (m ((c.tc : Thread _ _).loc Cert.ReferenceIdeal.main_arg0)))
          (Cert.Arr.f2 (m ((c.tc : Thread _ _).loc Cert.ReferenceIdeal.main_arg1)))
          (Cert.Arr.f2 (m ((c.tc : Thread _ _).loc Cert.ReferenceIdeal.main_arg2)))
          (Cert.Arr.f2 (m ((c.tc : Thread _ _).loc Cert.ReferenceIdeal.main_arg3)))
          (Cert.Arr.f2 (m ((c.tc : Thread _ _).loc Cert.ReferenceIdeal.main_arg4)))
          (Cert.Arr.f2 (m ((c.tc : Thread _ _).loc Cert.ReferenceIdeal.main_arg5)))
          (Cert.Arr.f2 (m ((c.tc : Thread _ _).loc Cert.ReferenceIdeal.main_arg6)))
          (Cert.Arr.f2 (m ((c.tc : Thread _ _).loc Cert.ReferenceIdeal.main_arg7))) b s n := by
  rw [f3_apply]
  show Cert.ReferenceIdeal.Value.res_main_v29 (F := Ideal) m c (ix3 b s n) = _
  rw [val_main_v29_eq]
  exact out_apply _ _ _ _ _ _ _ _ b s n

end Cert.RefSide

end
-- ==== Proof.Blocks.lean ====
import proofs.«900965_g7700000000000966_dist_mla_v7x_xyz2x2x2_y_b2_s256_d1024_dc64_f32_1_alg».proof.Defs
import proofs.«900965_g7700000000000966_dist_mla_v7x_xyz2x2x2_y_b2_s256_d1024_dc64_f32_1_alg».proof.Proof.Gen.KernelIdeal
import proofs.«900965_g7700000000000966_dist_mla_v7x_xyz2x2x2_y_b2_s256_d1024_dc64_f32_1_alg».proof.Proof.Gen.Pre_finite_inputs_Kernel
import proofs.«900965_g7700000000000966_dist_mla_v7x_xyz2x2x2_y_b2_s256_d1024_dc64_f32_1_alg».proof.Proof.Spec
import proofs.«900965_g7700000000000966_dist_mla_v7x_xyz2x2x2_y_b2_s256_d1024_dc64_f32_1_alg».proof.Proof.Arr
import Idealize.ShloMosaic.Lib.Layout
import Idealize.ShloMosaic.Lib.ReduceAll
import Idealize.ShloMosaic.Lib.ValueIdx

noncomputable section

namespace Cert.Blocks

open Idealize.ShloMosaic Idealize.SL.Sem Idealize.ShloMosaic.ValueIdx

def yOf (c : Dev Cert.KernelIdeal.nD) : Fin 2 := ⟨(c.val / 2) % 2, Nat.mod_lt _ (by decide)⟩

def nbr (c : Dev Cert.KernelIdeal.nD) : Dev Cert.KernelIdeal.nD :=
  ⟨Cert.KernelIdeal.k0_dev1 c, Cert.KernelIdeal.Gen.k0_dev1_lt c⟩

theorem yOf_nbr (c : Dev Cert.KernelIdeal.nD) : yOf (nbr c) = Cert.Spec.other (yOf c) := by
  apply Fin.ext
  show (Cert.KernelIdeal.k0_dev1 c / 2) % 2 = 1 - (c.val / 2) % 2
  rw [Cert.KernelIdeal.Gen.k0_dev1_eq]
  have := c.isLt
  omega

theorem meshLin_mid (c : Dev Cert.KernelIdeal.nD) : Layout.meshLin [2, 2, 2] c.val [1] = (yOf c).val := by
  revert c; decide

abbrev refArr (m' : (ℓ : Loc Cert.ReferenceIdeal.nD Cert.ReferenceIdeal.τ Cert.ReferenceIdeal.sig) → Buf (Elt Ideal) ℓ) (b : Ref Cert.ReferenceIdeal.sig .tc) :=
  m' (((0 : Dev Cert.ReferenceIdeal.nD).tc : Thread Cert.ReferenceIdeal.nD Cert.ReferenceIdeal.τ).loc b)
abbrev devArr (m : (ℓ : Loc Cert.KernelIdeal.nD Cert.KernelIdeal.τ Cert.KernelIdeal.sig) → Buf (Elt Ideal) ℓ) (c : Dev Cert.KernelIdeal.nD) (b : Ref Cert.KernelIdeal.sig .tc) :=
  m ((c.tc : Thread Cert.KernelIdeal.nD Cert.KernelIdeal.τ).loc b)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

def Agree : Prop :=
  ∀ c : Dev Cert.KernelIdeal.nD,
    devArr m c Cert.KernelIdeal.main_arg0 = refArr m' Cert.ReferenceIdeal.main_arg0
    ∧ devArr m c Cert.KernelIdeal.main_arg1 = Layout.blockN ⟨2, ![1024, 64]⟩ ⟨2, ![1024, 128]⟩ (Layout.meshBlock [2, 2, 2] ![[], [1]] c) (refArr m' Cert.ReferenceIdeal.main_arg1)
    ∧ devArr m c Cert.KernelIdeal.main_arg2 = Layout.blockN ⟨2, ![64, 1024]⟩ ⟨2, ![128, 1024]⟩ (Layout.meshBlock [2, 2, 2] ![[1], []] c) (refArr m' Cert.ReferenceIdeal.main_arg2)
    ∧ devArr m c Cert.KernelIdeal.main_arg3 = Layout.blockN ⟨2, ![64, 1024]⟩ ⟨2, ![128, 1024]⟩ (Layout.meshBlock [2, 2, 2] ![[1], []] c) (refArr m' Cert.ReferenceIdeal.main_arg3)
    ∧ devArr m c Cert.KernelIdeal.main_arg4 = refArr m' Cert.ReferenceIdeal.main_arg4
    ∧ devArr m c Cert.KernelIdeal.main_arg5 = refArr m' Cert.ReferenceIdeal.main_arg5
    ∧ devArr m c Cert.KernelIdeal.main_arg6 = refArr m' Cert.ReferenceIdeal.main_arg6
    ∧ devArr m c Cert.KernelIdeal.main_arg7 = refArr m' Cert.ReferenceIdeal.main_arg7

theorem arg1_block (c : Dev Cert.KernelIdeal.nD)
    (h : devArr m c Cert.KernelIdeal.main_arg1 = Layout.blockN ⟨2, ![1024, 64]⟩ ⟨2, ![1024, 128]⟩ (Layout.meshBlock [2, 2, 2] ![[], [1]] c) (refArr m' Cert.ReferenceIdeal.main_arg1)) :
    Cert.Arr.f2 (devArr m c Cert.KernelIdeal.main_arg1) = Cert.Spec.colHalf (Cert.Arr.f2 (refArr m' Cert.ReferenceIdeal.main_arg1)) (yOf c) := by
  funext j k
  rw [h]
  show refArr m' Cert.ReferenceIdeal.main_arg1 _ = refArr m' Cert.ReferenceIdeal.main_arg1 _
  congr 1
  funext b
  apply Fin.ext
  match b with
  | ⟨0, _⟩ => show 0 * 1024 + j.val = j.val; omega
  | ⟨1, _⟩ =>
    show Layout.meshLin [2, 2, 2] c.val [1] * 64 + k.val = 64 * (yOf c).val + k.val
    rw [meshLin_mid]; omega

theorem arg2_block (c : Dev Cert.KernelIdeal.nD)
    (h : devArr m c Cert.KernelIdeal.main_arg2 = Layout.blockN ⟨2, ![64, 1024]⟩ ⟨2, ![128, 1024]⟩ (Layout.meshBlock [2, 2, 2] ![[1], []] c) (refArr m' Cert.ReferenceIdeal.main_arg2)) :
    Cert.Arr.f2 (devArr m c Cert.KernelIdeal.main_arg2) = Cert.Spec.rowHalf (Cert.Arr.f2 (refArr m' Cert.ReferenceIdeal.main_arg2)) (yOf c) := by
  funext k n
  rw [h]
  show refArr m' Cert.ReferenceIdeal.main_arg2 _ = refArr m' Cert.ReferenceIdeal.main_arg2 _
  congr 1
  funext b
  apply Fin.ext
  match b with
  | ⟨0, _⟩ =>
    show Layout.meshLin [2, 2, 2] c.val [1] * 64 + k.val = 64 * (yOf c).val + k.val
    rw [meshLin_mid]; omega
  | ⟨1, _⟩ => show 0 * 1024 + n.val = n.val; omega

theorem arg3_block (c : Dev Cert.KernelIdeal.nD)
    (h : devArr m c Cert.KernelIdeal.main_arg3 = Layout.blockN ⟨2, ![64, 1024]⟩ ⟨2, ![128, 1024]⟩ (Layout.meshBlock [2, 2, 2] ![[1], []] c) (refArr m' Cert.ReferenceIdeal.main_arg3)) :
    Cert.Arr.f2 (devArr m c Cert.KernelIdeal.main_arg3) = Cert.Spec.rowHalf (Cert.Arr.f2 (refArr m' Cert.ReferenceIdeal.main_arg3)) (yOf c) := by
  funext k n
  rw [h]
  show refArr m' Cert.ReferenceIdeal.main_arg3 _ = refArr m' Cert.ReferenceIdeal.main_arg3 _
  congr 1
  funext b
  apply Fin.ext
  match b with
  | ⟨0, _⟩ =>
    show Layout.meshLin [2, 2, 2] c.val [1] * 64 + k.val = 64 * (yOf c).val + k.val
    rw [meshLin_mid]; omega
  | ⟨1, _⟩ => show 0 * 1024 + n.val = n.val; omega

instance : Subsingleton Cert.Pre_finite_inputs_Kernel.S_.Idx := ⟨fun a b => funext fun d => d.elim0⟩

theorem ofBits_inf : Ideal.ofBits .f32 0x7F800000#32 = ⊤ := by
  simp [Ideal.ofBits, Ideal.ieee]

theorem isReal_of_cmp (x : EReal)
    (h : FloatOps.cmpf (F := Ideal) (φ := .f32) .olt (FloatOps.absf (F := Ideal) (φ := .f32) x)
      (Ideal.ofBits .f32 0x7F800000#32) = 1#1) : Cert.Spec.IsReal x := by
  rw [ofBits_inf] at h
  change BitVec.ofBool (decide (max x (-x) < ⊤)) = 1#1 at h
  have h2 : max x (-x) < ⊤ := by
    by_contra hc
    rw [decide_eq_false hc] at h
    exact absurd h (by decide)
  induction x using EReal.rec with
  | bot => exact absurd h2 (by simp)
  | coe r => exact ⟨r, rfl⟩
  | top => exact absurd h2 (by simp)

theorem isReal_of_all {s : Shape} {axes : List (Fin s.rank)} (v : FVec Ideal s .f32)
    (hb : Cert.Pre_finite_inputs_Kernel.S_.BroadcastsInDim s (![] : Fin 0 → Fin s.rank)) (hr : s.ReducesTo axes Cert.Pre_finite_inputs_Kernel.S_)
    (hu : 0 < Cert.Pre_finite_inputs_Kernel.S_.numel) (init : IVec Cert.Pre_finite_inputs_Kernel.S_ 1)
    (e : Host.reduce IntOp.andi (cmpf .olt (Host.absf v) (broadcastInDim s ![] hb (constant Cert.Pre_finite_inputs_Kernel.S_ .f32 0x7F800000#32)))
      init hr hu ix0 = 1#1) (i : s.Idx) : Cert.Spec.IsReal (v i) :=
  isReal_of_cmp (v i) (Host.reduce_andi_all _ init hr hu ix0 e i)

theorem andi_ix0 (a b : IVec Cert.Pre_finite_inputs_Kernel.S_ 1) (h : andi a b ix0 = 1#1) : a ix0 = 1#1 ∧ b ix0 = 1#1 :=
  IntOp.andi_eq_one.1 h

theorem finite_of_pre [Cert.Pre_finite_inputs_Kernel.Facts] (hpre : Cert.Pre_KernelIdeal m) (c : Dev Cert.KernelIdeal.nD) :
    (∀ b s j, Cert.Spec.IsReal (Cert.Arr.f3 (devArr m c Cert.KernelIdeal.main_arg0) b s j))
    ∧ (∀ j k, Cert.Spec.IsReal (Cert.Arr.f2 (devArr m c Cert.KernelIdeal.main_arg1) j k))
    ∧ (∀ j k, Cert.Spec.IsReal (Cert.Arr.f2 (devArr m c Cert.KernelIdeal.main_arg2) j k))
    ∧ (∀ j k, Cert.Spec.IsReal (Cert.Arr.f2 (devArr m c Cert.KernelIdeal.main_arg3) j k))
    ∧ (∀ j k, Cert.Spec.IsReal (Cert.Arr.f2 (devArr m c Cert.KernelIdeal.main_arg4) j k))
    ∧ (∀ j k, Cert.Spec.IsReal (Cert.Arr.f2 (devArr m c Cert.KernelIdeal.main_arg5) j k))
    ∧ (∀ j k, Cert.Spec.IsReal (Cert.Arr.f2 (devArr m c Cert.KernelIdeal.main_arg6) j k))
    ∧ (∀ j k, Cert.Spec.IsReal (Cert.Arr.f2 (devArr m c Cert.KernelIdeal.main_arg7) j k)) := by
  have h := congrFun (hpre c) ix0
  dsimp only [Cert.Pre_finite_inputs_Kernel.fn, Cert.Pre_finite_inputs_Kernel.fn_part1, Cert.Pre_finite_inputs_Kernel.fn_part2] at h
  obtain ⟨h, h7⟩ := andi_ix0 _ _ h
  obtain ⟨h, h6⟩ := andi_ix0 _ _ h
  obtain ⟨h, h5⟩ := andi_ix0 _ _ h
  obtain ⟨h, h4⟩ := andi_ix0 _ _ h
  obtain ⟨h, h3⟩ := andi_ix0 _ _ h
  obtain ⟨h, h2⟩ := andi_ix0 _ _ h
  obtain ⟨h0, h1⟩ := andi_ix0 _ _ h
  exact ⟨fun b s j => isReal_of_all _ _ _ _ _ h0 (ix3 b s j),
    fun j k => isReal_of_all _ _ _ _ _ h1 (ix2 j k),
    fun j k => isReal_of_all _ _ _ _ _ h2 (ix2 j k),
    fun j k => isReal_of_all _ _ _ _ _ h3 (ix2 j k),
    fun j k => isReal_of_all _ _ _ _ _ h4 (ix2 j k),
    fun j k => isReal_of_all _ _ _ _ _ h5 (ix2 j k),
    fun j k => isReal_of_all _ _ _ _ _ h6 (ix2 j k),
    fun j k => isReal_of_all _ _ _ _ _ h7 (ix2 j k)⟩

def devOf (y : Fin 2) : Dev Cert.KernelIdeal.nD := ⟨2 * y.val, by have := y.isLt; show 2 * y.val < 8; omega⟩

theorem yOf_devOf (y : Fin 2) : yOf (devOf y) = y := by revert y; decide

theorem isReal_of_colHalf (W : Fin 1024 → Fin 128 → EReal)
    (h : ∀ y j k, Cert.Spec.IsReal (Cert.Spec.colHalf W y j k)) (j : Fin 1024) (k : Fin 128) : Cert.Spec.IsReal (W j k) := by
  have hk := k.isLt
  by_cases hlt : k.val < 64
  · have e : (⟨64 * (0 : Fin 2).val + (⟨k.val, hlt⟩ : Fin 64).val, by show 64 * 0 + k.val < 128; omega⟩ : Fin 128) = k :=
      Fin.ext (by show 64 * 0 + k.val = k.val; omega)
    have := h 0 j ⟨k.val, hlt⟩
    rw [← e]; exact this
  · have hlt' : k.val - 64 < 64 := by omega
    have e : (⟨64 * (1 : Fin 2).val + (⟨k.val - 64, hlt'⟩ : Fin 64).val, by show 64 * 1 + (k.val - 64) < 128; omega⟩ : Fin 128) = k :=
      Fin.ext (by show 64 * 1 + (k.val - 64) = k.val; omega)
    have := h 1 j ⟨k.val - 64, hlt'⟩
    rw [← e]; exact this

theorem isReal_of_rowHalf (W : Fin 128 → Fin 1024 → EReal)
    (h : ∀ y k n, Cert.Spec.IsReal (Cert.Spec.rowHalf W y k n)) (k : Fin 128) (n : Fin 1024) : Cert.Spec.IsReal (W k n) := by
  have hk := k.isLt
  by_cases hlt : k.val < 64
  · have e : (⟨64 * (0 : Fin 2).val + (⟨k.val, hlt⟩ : Fin 64).val, by show 64 * 0 + k.val < 128; omega⟩ : Fin 128) = k :=
      Fin.ext (by show 64 * 0 + k.val = k.val; omega)
    have := h 0 ⟨k.val, hlt⟩ n
    rw [← e]; exact this
  · have hlt' : k.val - 64 < 64 := by omega
    have e : (⟨64 * (1 : Fin 2).val + (⟨k.val - 64, hlt'⟩ : Fin 64).val, by show 64 * 1 + (k.val - 64) < 128; omega⟩ : Fin 128) = k :=
      Fin.ext (by show 64 * 1 + (k.val - 64) = k.val; omega)
    have := h 1 ⟨k.val - 64, hlt'⟩ n
    rw [← e]; exact this

-- Every entry of the reference's whole arrays is real, because every device's blocks of them are.
theorem whole_finite [Cert.Pre_finite_inputs_Kernel.Facts] (hpre : Cert.Pre_KernelIdeal m)
    (hagree : Agree m m') :
    (∀ b s j, Cert.Spec.IsReal (Cert.Arr.f3 (refArr m' Cert.ReferenceIdeal.main_arg0) b s j))
    ∧ (∀ j k, Cert.Spec.IsReal (Cert.Arr.f2 (refArr m' Cert.ReferenceIdeal.main_arg1) j k))
    ∧ (∀ k n, Cert.Spec.IsReal (Cert.Arr.f2 (refArr m' Cert.ReferenceIdeal.main_arg2) k n))
    ∧ (∀ k n, Cert.Spec.IsReal (Cert.Arr.f2 (refArr m' Cert.ReferenceIdeal.main_arg3) k n))
    ∧ (∀ j n, Cert.Spec.IsReal (Cert.Arr.f2 (refArr m' Cert.ReferenceIdeal.main_arg4) j n))
    ∧ (∀ j n, Cert.Spec.IsReal (Cert.Arr.f2 (refArr m' Cert.ReferenceIdeal.main_arg5) j n))
    ∧ (∀ j n, Cert.Spec.IsReal (Cert.Arr.f2 (refArr m' Cert.ReferenceIdeal.main_arg6) j n))
    ∧ (∀ j n, Cert.Spec.IsReal (Cert.Arr.f2 (refArr m' Cert.ReferenceIdeal.main_arg7) j n)) := by
  have f0 := finite_of_pre m hpre 0
  have a0 := hagree 0
  refine ⟨?_, ?_, ?_, ?_, ?_, ?_, ?_, ?_⟩
  · rw [← a0.1]; exact f0.1
  · refine isReal_of_colHalf _ fun y j k => ?_
    rw [← yOf_devOf y, ← arg1_block m m' (devOf y) (hagree (devOf y)).2.1]
    exact (finite_of_pre m hpre (devOf y)).2.1 j k
  · refine isReal_of_rowHalf _ fun y k n => ?_
    rw [← yOf_devOf y, ← arg2_block m m' (devOf y) (hagree (devOf y)).2.2.1]
    exact (finite_of_pre m hpre (devOf y)).2.2.1 k n
  · refine isReal_of_rowHalf _ fun y k n => ?_
    rw [← yOf_devOf y, ← arg3_block m m' (devOf y) (hagree (devOf y)).2.2.2.1]
    exact (finite_of_pre m hpre (devOf y)).2.2.2.1 k n
  · rw [← a0.2.2.2.2.1]; exact f0.2.2.2.2.1
  · rw [← a0.2.2.2.2.2.1]; exact f0.2.2.2.2.2.1
  · rw [← a0.2.2.2.2.2.2.1]; exact f0.2.2.2.2.2.2.1
  · rw [← a0.2.2.2.2.2.2.2]; exact f0.2.2.2.2.2.2.2

end Cert.Blocks

end
-- ==== Proof.Bridge.lean ====
import proofs.«900965_g7700000000000966_dist_mla_v7x_xyz2x2x2_y_b2_s256_d1024_dc64_f32_1_alg».proof.Defs
import proofs.«900965_g7700000000000966_dist_mla_v7x_xyz2x2x2_y_b2_s256_d1024_dc64_f32_1_alg».proof.Proof.Proto
import proofs.«900965_g7700000000000966_dist_mla_v7x_xyz2x2x2_y_b2_s256_d1024_dc64_f32_1_alg».proof.Proof.Reads
import proofs.«900965_g7700000000000966_dist_mla_v7x_xyz2x2x2_y_b2_s256_d1024_dc64_f32_1_alg».proof.Proof.KOut
import proofs.«900965_g7700000000000966_dist_mla_v7x_xyz2x2x2_y_b2_s256_d1024_dc64_f32_1_alg».proof.Proof.Alg
import proofs.«900965_g7700000000000966_dist_mla_v7x_xyz2x2x2_y_b2_s256_d1024_dc64_f32_1_alg».proof.Proof.RefValue
import proofs.«900965_g7700000000000966_dist_mla_v7x_xyz2x2x2_y_b2_s256_d1024_dc64_f32_1_alg».proof.Proof.Blocks

noncomputable section

namespace Cert.Bridge

open Cert.KernelIdeal Cert.KernelIdeal.Gen Cert.KernelIdeal.Hand Cert.Spec Cert.Arr Cert.KVal
open Idealize.ShloMosaic Idealize.SL.Sem Idealize.ShloMosaic.ValueIdx
open Cert.Blocks (refArr devArr Agree)

variable (m : (ℓ : Loc nD τ sig) → Buf (Elt Ideal) ℓ)

theorem stg0_eq (c : Dev nD) : stg0 (F := Ideal) m c = devArr m c main_arg0 := by
  funext y
  unfold stg0
  rw [View.read_apply]
  exact congrArg (devArr m c main_arg0) (funext fun a => Fin.ext (Pipeline.Window.rect_emb_val_of_index_zero win0_0 (0 : Fin 1) a rfl y))

theorem stg1_eq (c : Dev nD) : stg1 (F := Ideal) m c = devArr m c main_arg1 := by
  funext y
  unfold stg1
  rw [View.read_apply]
  exact congrArg (devArr m c main_arg1) (funext fun a => Fin.ext (Pipeline.Window.rect_emb_val_of_index_zero win0_1 (0 : Fin 1) a rfl y))

theorem stg2_eq (c : Dev nD) : stg2 (F := Ideal) m c = devArr m c main_arg2 := by
  funext y
  unfold stg2
  rw [View.read_apply]
  exact congrArg (devArr m c main_arg2) (funext fun a => Fin.ext (Pipeline.Window.rect_emb_val_of_index_zero win0_2 (0 : Fin 1) a rfl y))

theorem stg3_eq (c : Dev nD) : stg3 (F := Ideal) m c = devArr m c main_arg3 := by
  funext y
  unfold stg3
  rw [View.read_apply]
  exact congrArg (devArr m c main_arg3) (funext fun a => Fin.ext (Pipeline.Window.rect_emb_val_of_index_zero win0_3 (0 : Fin 1) a rfl y))

theorem stg4_eq (c : Dev nD) : stg4 (F := Ideal) m c = devArr m c main_arg4 := by
  funext y
  unfold stg4
  rw [View.read_apply]
  exact congrArg (devArr m c main_arg4) (funext fun a => Fin.ext (Pipeline.Window.rect_emb_val_of_index_zero win0_4 (0 : Fin 1) a rfl y))

theorem stg5_eq (c : Dev nD) : stg5 (F := Ideal) m c = devArr m c main_arg5 := by
  funext y
  unfold stg5
  rw [View.read_apply]
  exact congrArg (devArr m c main_arg5) (funext fun a => Fin.ext (Pipeline.Window.rect_emb_val_of_index_zero win0_5 (0 : Fin 1) a rfl y))

theorem stg6_eq (c : Dev nD) : stg6 (F := Ideal) m c = devArr m c main_arg6 := by
  funext y
  unfold stg6
  rw [View.read_apply]
  exact congrArg (devArr m c main_arg6) (funext fun a => Fin.ext (Pipeline.Window.rect_emb_val_of_index_zero win0_6 (0 : Fin 1) a rfl y))

theorem stg7_eq (c : Dev nD) : stg7 (F := Ideal) m c = devArr m c main_arg7 := by
  funext y
  unfold stg7
  rw [View.read_apply]
  exact congrArg (devArr m c main_arg7) (funext fun a => Fin.ext (Pipeline.Window.rect_emb_val_of_index_zero win0_7 (0 : Fin 1) a rfl y))

theorem ld1_eq (c : Dev nD) : ld1 (F := Ideal) m c = devArr m c main_arg1 :=
  (Memref.readAt_unit_zero (Elt Ideal) cc0_stg1_0 zero_offsets2 _ _).trans (stg1_eq m c)

theorem ld2_eq (c : Dev nD) : ld2 (F := Ideal) m c = devArr m c main_arg2 :=
  (Memref.readAt_unit_zero (Elt Ideal) cc0_stg2_0 zero_offsets2 _ _).trans (stg2_eq m c)

theorem ld3_eq (c : Dev nD) : ld3 (F := Ideal) m c = devArr m c main_arg3 :=
  (Memref.readAt_unit_zero (Elt Ideal) cc0_stg3_0 zero_offsets2 _ _).trans (stg3_eq m c)

theorem ld4_eq (c : Dev nD) : ld4 (F := Ideal) m c = devArr m c main_arg4 :=
  (Memref.readAt_unit_zero (Elt Ideal) cc0_stg4_0 zero_offsets2 _ _).trans (stg4_eq m c)

theorem ld5_eq (c : Dev nD) : ld5 (F := Ideal) m c = devArr m c main_arg5 :=
  (Memref.readAt_unit_zero (Elt Ideal) cc0_stg5_0 zero_offsets2 _ _).trans (stg5_eq m c)

theorem ld6_eq (c : Dev nD) : ld6 (F := Ideal) m c = devArr m c main_arg6 :=
  (Memref.readAt_unit_zero (Elt Ideal) cc0_stg6_0 zero_offsets2 _ _).trans (stg6_eq m c)

theorem ld7_eq (c : Dev nD) : ld7 (F := Ideal) m c = devArr m c main_arg7 :=
  (Memref.readAt_unit_zero (Elt Ideal) cc0_stg7_0 zero_offsets2 _ _).trans (stg7_eq m c)

theorem x0_apply (c : Dev nD) (s : Fin 256) (j : Fin 1024) :
    x0 (F := Ideal) m c (ix3 (0 : Fin 1) s j) = devArr m c main_arg0 (ix3 (0 : Fin 2) s j) := by
  show stg0 m c (rX0.emb (ix3 (0 : Fin 1) s j)) = _
  rw [stg0_eq]
  refine congrArg (devArr m c main_arg0) (funext fun a => Fin.ext ?_)
  match a with
  | ⟨0, _⟩ => rfl
  | ⟨1, _⟩ => show 0 + 1 * s.val = s.val; omega
  | ⟨2, _⟩ => show 0 + 1 * j.val = j.val; omega
theorem x1_apply (c : Dev nD) (s : Fin 256) (j : Fin 1024) :
    x1 (F := Ideal) m c (ix3 (0 : Fin 1) s j) = devArr m c main_arg0 (ix3 (1 : Fin 2) s j) := by
  show stg0 m c (rX1.emb (ix3 (0 : Fin 1) s j)) = _
  rw [stg0_eq]
  refine congrArg (devArr m c main_arg0) (funext fun a => Fin.ext ?_)
  match a with
  | ⟨0, _⟩ => rfl
  | ⟨1, _⟩ => show 0 + 1 * s.val = s.val; omega
  | ⟨2, _⟩ => show 0 + 1 * j.val = j.val; omega

theorem Xof_loads (c : Dev nD) : Xof (x0 m c) (x1 m c) = f3 (devArr m c main_arg0) := by
  funext b s j
  unfold Xof
  by_cases hb : b = 0
  · subst hb; rw [if_pos rfl, x0_apply]; rfl
  · have hb1 : b = 1 := Fin.ext (by have := b.isLt; have : b.val ≠ 0 := fun h => hb (Fin.ext h); omega)
    subst hb1; rw [if_neg (by decide), x1_apply]; rfl

theorem x0_congr (c c' : Dev nD) (h : devArr m c main_arg0 = devArr m c' main_arg0) : x0 (F := Ideal) m c = x0 m c' := by
  unfold x0 stg0; unfold devArr at h; rw [h]
theorem x1_congr (c c' : Dev nD) (h : devArr m c main_arg0 = devArr m c' main_arg0) : x1 (F := Ideal) m c = x1 m c' := by
  unfold x1 stg0; unfold devArr at h; rw [h]

theorem crd0_eq (c : Dev nD) : crd0 (F := Ideal) m c = cs0 (x0 m (nbr c)) (ld1 m (nbr c)) := rd_land0_0 m c
theorem crd1_eq (c : Dev nD) : crd1 (F := Ideal) m c = cs1 (x1 m (nbr c)) (ld1 m (nbr c)) := rd_land0_1 m c
theorem wukr_eq (c : Dev nD) : wukr (F := Ideal) m c = wukS (ld2 m (nbr c)) := rd_land1 m c
theorem wuvr_eq (c : Dev nD) : wuvr (F := Ideal) m c = wuvS (ld3 m (nbr c)) := rd_land2 m c

theorem yOf_nbr (c : Dev nD) : Cert.Blocks.yOf (nbr c) = other (Cert.Blocks.yOf c) := Cert.Blocks.yOf_nbr c

-- A device's result is the reference's result, index by index.
theorem outVal_eq_ref [Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : Agree m m')
    (c : Dev Cert.KernelIdeal.nD) :
    Cert.KernelIdeal.Hand.outVal (F := Ideal) m c = Cert.ReferenceIdeal.Value.res_out0 (F := Ideal) m' (0 : Dev Cert.ReferenceIdeal.nD) := by
  funext i
  obtain ⟨b, s, n, rfl⟩ : ∃ (b : Fin 2) (s : Fin 256) (n : Fin 1024), i = ix3 b s n := ⟨i 0, i 1, i 2, eq_ix3 i⟩
  have hc := hagree c
  have hn := hagree (nbr c)
  obtain ⟨hX, hWd, hWuk, hWuv, hWq, hWqr, hWkr, hWo⟩ := Cert.Blocks.whole_finite m m' hpre hagree
  have eX : Xof (x0 m c) (x1 m c) = f3 (refArr m' Cert.ReferenceIdeal.main_arg0) := by rw [Xof_loads, hc.1]
  have e1 : f2 (ld1 m c) = colHalf (f2 (refArr m' Cert.ReferenceIdeal.main_arg1)) (Cert.Blocks.yOf c) := by
    rw [ld1_eq]; exact Cert.Blocks.arg1_block m m' c hc.2.1
  have e1n : f2 (ld1 m (nbr c)) = colHalf (f2 (refArr m' Cert.ReferenceIdeal.main_arg1)) (other (Cert.Blocks.yOf c)) := by
    rw [ld1_eq, ← yOf_nbr]; exact Cert.Blocks.arg1_block m m' (nbr c) hn.2.1
  have e2 : f2 (ld2 m c) = rowHalf (f2 (refArr m' Cert.ReferenceIdeal.main_arg2)) (Cert.Blocks.yOf c) := by
    rw [ld2_eq]; exact Cert.Blocks.arg2_block m m' c hc.2.2.1
  have e2n : f2 (ld2 m (nbr c)) = rowHalf (f2 (refArr m' Cert.ReferenceIdeal.main_arg2)) (other (Cert.Blocks.yOf c)) := by
    rw [ld2_eq, ← yOf_nbr]; exact Cert.Blocks.arg2_block m m' (nbr c) hn.2.2.1
  have e3 : f2 (ld3 m c) = rowHalf (f2 (refArr m' Cert.ReferenceIdeal.main_arg3)) (Cert.Blocks.yOf c) := by
    rw [ld3_eq]; exact Cert.Blocks.arg3_block m m' c hc.2.2.2.1
  have e3n : f2 (ld3 m (nbr c)) = rowHalf (f2 (refArr m' Cert.ReferenceIdeal.main_arg3)) (other (Cert.Blocks.yOf c)) := by
    rw [ld3_eq, ← yOf_nbr]; exact Cert.Blocks.arg3_block m m' (nbr c) hn.2.2.2.1
  have e4 : f2 (ld4 m c) = f2 (refArr m' Cert.ReferenceIdeal.main_arg4) := by rw [ld4_eq, hc.2.2.2.2.1]
  have e5 : f2 (ld5 m c) = f2 (refArr m' Cert.ReferenceIdeal.main_arg5) := by rw [ld5_eq, hc.2.2.2.2.2.1]
  have e6 : f2 (ld6 m c) = f2 (refArr m' Cert.ReferenceIdeal.main_arg6) := by rw [ld6_eq, hc.2.2.2.2.2.2.1]
  have e7 : f2 (ld7 m c) = f2 (refArr m' Cert.ReferenceIdeal.main_arg7) := by rw [ld7_eq, hc.2.2.2.2.2.2.2]
  have hx0 : x0 m (nbr c) = x0 m c := x0_congr m _ _ (hn.1.trans hc.1.symm)
  have hx1 : x1 m (nbr c) = x1 m c := x1_congr m _ _ (hn.1.trans hc.1.symm)
  have key := Cert.Alg.ker_eq_ref (Cert.Blocks.yOf c) _ _ _ _ _ _ _ _ hX hWd hWuk hWuv hWq hWqr hWkr hWo b s n
  have href := Cert.RefSide.res_apply m' 0 b s n
  rw [f3_apply] at href
  rw [href, ← key]
  unfold outVal
  by_cases hb : b = 0
  · subst hb
    show outB0 (x0 m c) (ld1 m c) (ld2 m c) (ld3 m c) (ld4 m c) (ld5 m c) (ld6 m c) (ld7 m c) (crd0 m c) (wukr m c) (wuvr m c) (ix3 (0 : Fin 1) s n) = _
    rw [crd0_eq, wukr_eq, wuvr_eq, hx0,
      outB0_apply (x0 m c) (x1 m c) (ld1 m c) (ld1 m (nbr c)) (ld2 m c) (ld3 m c) (ld2 m (nbr c)) (ld3 m (nbr c)) (ld4 m c) (ld5 m c) (ld6 m c) (ld7 m c) s n,
      eX, e1, e1n, e2, e2n, e3, e3n, e4, e5, e6, e7]
  · have hb1 : b = 1 := Fin.ext (by have := b.isLt; have : b.val ≠ 0 := fun h => hb (Fin.ext h); omega)
    subst hb1
    show outB1 (x1 m c) (ld1 m c) (ld2 m c) (ld3 m c) (ld4 m c) (ld5 m c) (ld6 m c) (ld7 m c) (crd1 m c) (wukr m c) (wuvr m c) (ix3 (0 : Fin 1) s n) = _
    rw [crd1_eq, wukr_eq, wuvr_eq, hx1,
      outB1_apply (x0 m c) (x1 m c) (ld1 m c) (ld1 m (nbr c)) (ld2 m c) (ld3 m c) (ld2 m (nbr c)) (ld3 m (nbr c)) (ld4 m c) (ld5 m c) (ld6 m c) (ld7 m c) s n,
      eX, e1, e1n, e2, e2n, e3, e3n, e4, e5, e6, e7]

end Cert.Bridge

end
-- ==== Proof.Assemble.lean ====
import proofs.«900965_g7700000000000966_dist_mla_v7x_xyz2x2x2_y_b2_s256_d1024_dc64_f32_1_alg».proof.Defs
import proofs.«900965_g7700000000000966_dist_mla_v7x_xyz2x2x2_y_b2_s256_d1024_dc64_f32_1_alg».proof.Proof.Gen.Kernel
import proofs.«900965_g7700000000000966_dist_mla_v7x_xyz2x2x2_y_b2_s256_d1024_dc64_f32_1_alg».proof.Proof.Gen.Pre_finite_inputs_Kernel
import proofs.«900965_g7700000000000966_dist_mla_v7x_xyz2x2x2_y_b2_s256_d1024_dc64_f32_1_alg».proof.Proof.Gen.Pre_finite_inputs_ReferenceIdeal
import proofs.«900965_g7700000000000966_dist_mla_v7x_xyz2x2x2_y_b2_s256_d1024_dc64_f32_1_alg».proof.Proof.Gen.ReferenceIdeal.Run
import proofs.«900965_g7700000000000966_dist_mla_v7x_xyz2x2x2_y_b2_s256_d1024_dc64_f32_1_alg».proof.Proof.Body
import proofs.«900965_g7700000000000966_dist_mla_v7x_xyz2x2x2_y_b2_s256_d1024_dc64_f32_1_alg».proof.Proof.Bridge

noncomputable section

namespace Cert.Assemble

open Idealize.ShloMosaic Idealize.SL.Sem Cert.KernelIdeal Cert.KernelIdeal.Hand

variable {F : FTy → Type} [FloatOps F] (m : (ℓ : Loc nD τ sig) → Buf (Elt F) ℓ) (ρ : Dev nD → PrngReg)

-- Every device's run ends with its result array at `outVal` and its argument arrays unchanged.
theorem kernel_run : θ_run defs (onTc (τ := τ) (main (F := F))) ⟨m, fun _ => 0, ρ⟩ (fun r => ∀ c : Dev nD,
    r.2.mem ((c.tc : Thread nD τ).loc main_v1) = outVal m c
    ∧ ∀ w : Fin cfg0.W, r.2.mem ((cfg0.win w).arr.view.loc (c.tc : Thread nD τ)) = m ((cfg0.win w).arr.view.loc (c.tc : Thread nD τ))) :=
  (θ_run defs _ _).mono (fun r h c => ⟨(h c).1, fun w => ((h c).2 w).trans (arrAt_launch m ρ c w)⟩)
    (run_main m ρ (body_obligation m ρ))

-- The word-level program and the idealized one are the same term at every label.
theorem defs₀_eq : Cert.Kernel.defs₀ (F := F) = defs₀ := by
  unfold Cert.Kernel.defs₀ defs₀
  congr 1; funext l a
  match l, a with
  | 0, (t, s) => rfl
  | ⟨_ + 1, h⟩, _ => exact absurd h (by omega)

theorem frame_Kernel : Cert.frame_Kernel := fun m ρ _ => by
  rw [show Cert.Kernel.defs (F := Bits) = defs from congrArg (Pipeline.defs pcfgs) defs₀_eq]
  exact (θ_run defs _ _).mono (fun r h c => have a := (h c).2; ⟨a 0, a 1, a 2, a 3, a 4, a 5, a 6, a 7⟩) (kernel_run (F := Bits) m ρ)

theorem frame_KernelIdeal : Cert.frame_KernelIdeal := fun m ρ _ =>
  (θ_run defs _ _).mono (fun r h c => have a := (h c).2; ⟨a 0, a 1, a 2, a 3, a 4, a 5, a 6, a 7⟩) (kernel_run m ρ)

theorem frame_ReferenceIdeal : Cert.frame_ReferenceIdeal := fun m ρ _ =>
  (θ_run Cert.ReferenceIdeal.defs _ _).mono (fun _ h c => (h c).2) (Cert.ReferenceIdeal.Value.run (F := Ideal) m ρ)

-- Over the extended reals each device's result is the reference's.
theorem algebraic : Cert.algebraic_KernelIdeal_ReferenceIdeal := fun m g m' g' hpre hagree =>
  ⟨Cert.ReferenceIdeal.Value.res_out0 (F := Ideal) m' 0,
    (θ_run defs _ _).mono (fun r h c => have a := (h c).2
      ⟨(h c).1.trans (Cert.Bridge.outVal_eq_ref m m' hpre hagree c), a 0, a 1, a 2, a 3, a 4, a 5, a 6, a 7⟩) (kernel_run m g),
    (θ_run Cert.ReferenceIdeal.defs _ _).mono (fun _ h => h 0) (Cert.ReferenceIdeal.Value.run (F := Ideal) m' g')⟩

end Cert.Assemble

end
-- ==== Proof.lean ====
/- Eight devices each compute the whole attention layer, the latent dimension cut in two along one mesh axis: a device
   and its neighbour on that axis exchange their halves of the latent and of the two up-projections and add the two
   contributions. One run of the body, for any float values, gives each device's result as a pure term of its arguments;
   over the extended reals that term is the reference's result, and the frames are the same run with the value dropped. -/
import proofs.«900965_g7700000000000966_dist_mla_v7x_xyz2x2x2_y_b2_s256_d1024_dc64_f32_1_alg».proof.Defs
import proofs.«900965_g7700000000000966_dist_mla_v7x_xyz2x2x2_y_b2_s256_d1024_dc64_f32_1_alg».proof.Proof.Gen.Kernel
import proofs.«900965_g7700000000000966_dist_mla_v7x_xyz2x2x2_y_b2_s256_d1024_dc64_f32_1_alg».proof.Proof.Gen.Kernel.Skeleton
import proofs.«900965_g7700000000000966_dist_mla_v7x_xyz2x2x2_y_b2_s256_d1024_dc64_f32_1_alg».proof.Proof.Gen.Kernel.Launch
import proofs.«900965_g7700000000000966_dist_mla_v7x_xyz2x2x2_y_b2_s256_d1024_dc64_f32_1_alg».proof.Proof.Gen.Kernel.Points
import proofs.«900965_g7700000000000966_dist_mla_v7x_xyz2x2x2_y_b2_s256_d1024_dc64_f32_1_alg».proof.Proof.Gen.Kernel.Frame
import proofs.«900965_g7700000000000966_dist_mla_v7x_xyz2x2x2_y_b2_s256_d1024_dc64_f32_1_alg».proof.Proof.Gen.KernelIdeal
import proofs.«900965_g7700000000000966_dist_mla_v7x_xyz2x2x2_y_b2_s256_d1024_dc64_f32_1_alg».proof.Proof.Gen.KernelIdeal.Skeleton
import proofs.«900965_g7700000000000966_dist_mla_v7x_xyz2x2x2_y_b2_s256_d1024_dc64_f32_1_alg».proof.Proof.Gen.KernelIdeal.Launch
import proofs.«900965_g7700000000000966_dist_mla_v7x_xyz2x2x2_y_b2_s256_d1024_dc64_f32_1_alg».proof.Proof.Gen.KernelIdeal.Points
import proofs.«900965_g7700000000000966_dist_mla_v7x_xyz2x2x2_y_b2_s256_d1024_dc64_f32_1_alg».proof.Proof.Gen.KernelIdeal.Frame
import proofs.«900965_g7700000000000966_dist_mla_v7x_xyz2x2x2_y_b2_s256_d1024_dc64_f32_1_alg».proof.Proof.Gen.ReferenceIdeal
import proofs.«900965_g7700000000000966_dist_mla_v7x_xyz2x2x2_y_b2_s256_d1024_dc64_f32_1_alg».proof.Proof.Gen.Pre_finite_inputs_Kernel
import proofs.«900965_g7700000000000966_dist_mla_v7x_xyz2x2x2_y_b2_s256_d1024_dc64_f32_1_alg».proof.Proof.Gen.Pre_finite_inputs_ReferenceIdeal
import proofs.«900965_g7700000000000966_dist_mla_v7x_xyz2x2x2_y_b2_s256_d1024_dc64_f32_1_alg».proof.Proof.Assemble
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Assemble.frame_Kernel, Cert.Assemble.frame_KernelIdeal, Cert.Assemble.frame_ReferenceIdeal, trivial, Cert.Assemble.algebraic⟩

end Cert.Proof

end
